-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S86x4096 : S_.BroadcastsInDim S86x4096 (![] : Fin 0 → Fin S86x4096.rank)
  reducesTo_S86x4096_S_d0_1 : S86x4096.ReducesTo [0, 1] S_

variable [Facts]

def fn_part1 {F : FTy → Type} [FloatOps F] (main_v13 : IVec S_ 1) (main_v16 : IVec S86x4096 1) : IVec S_ 1 :=
  let main_c_5 : IVec S_ 1 := constantI S_ 1 1#1
  let main_v17 : IVec S_ 1 := (fun x v => Host.reduce IntOp.andi x v reducesTo_S86x4096_S_d0_1 h_S_) main_v16 main_c_5
  let main_v18 : IVec S_ 1 := andi main_v13 main_v17
  main_v18

def fn {F : FTy → Type} [FloatOps F] (main_arg0 : FVec F S8192x4096 .f32) (main_arg1 : IVec S4096x1376 32) (main_arg2 : FVec F S32x11008 .f32) (main_arg3 : IVec S32x1376 32) (main_arg4 : IVec S4096x1376 32) (main_arg5 : FVec F S32x11008 .f32) (main_arg6 : IVec S32x1376 32) (main_arg7 : IVec S11008x512 32) (main_arg8 : FVec F S86x4096 .f32) (main_arg9 : IVec S86x512 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg5
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S86x4096 .f32 := Host.absf main_arg8
  let main_cst_4 : FVec F S_ .f32 := constant S_ .f32 0x7F800000#32
  let main_v15 : FVec F S86x4096 .f32 := broadcastInDim S86x4096 ![] bcast_S_S86x4096 main_cst_4
  let main_v16 : IVec S86x4096 1 := cmpf .olt main_v14 main_v15
  fn_part1 (F := F) main_v13 main_v16
-- ==== Kernel.lean ====
abbrev S8192x4096 : Shape := ⟨2, ![8192, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S_ : Shape := ⟨0, ![]⟩
abbrev S4096x1408 : Shape := ⟨2, ![4096, 1408]⟩
abbrev S32x11264 : Shape := ⟨2, ![32, 11264]⟩
abbrev S32x11x128x8 : Shape := ⟨4, ![32, 11, 128, 8]⟩
abbrev S32x11x8x128 : Shape := ⟨4, ![32, 11, 8, 128]⟩
abbrev S32x1408 : Shape := ⟨2, ![32, 1408]⟩
abbrev S8192x11264 : Shape := ⟨2, ![8192, 11264]⟩
abbrev S1024x1024 : Shape := ⟨2, ![1024, 1024]⟩
abbrev S1024x128 : Shape := ⟨2, ![1024, 128]⟩
abbrev S8x1024 : Shape := ⟨2, ![8, 1024]⟩
abbrev S8x128 : Shape := ⟨2, ![8, 128]⟩
abbrev S1024x256 : Shape := ⟨2, ![1024, 256]⟩
abbrev S128x128 : Shape := ⟨2, ![128, 128]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S128x1024 : Shape := ⟨2, ![128, 1024]⟩
abbrev S256x1024 : Shape := ⟨2, ![256, 1024]⟩
abbrev S8192x11x8x128 : Shape := ⟨4, ![8192, 11, 8, 128]⟩
abbrev S8192x11x128x8 : Shape := ⟨4, ![8192, 11, 128, 8]⟩
abbrev S11264x512 : Shape := ⟨2, ![11264, 512]⟩
abbrev S88x4096 : Shape := ⟨2, ![88, 4096]⟩
abbrev S88x4x128x8 : Shape := ⟨4, ![88, 4, 128, 8]⟩
abbrev S88x4x8x128 : Shape := ⟨4, ![88, 4, 8, 128]⟩
abbrev S88x512 : Shape := ⟨2, ![88, 512]⟩
abbrev S8192x4x8x128 : Shape := ⟨4, ![8192, 4, 8, 128]⟩
abbrev S8192x4x128x8 : Shape := ⟨4, ![8192, 4, 128, 8]⟩

abbrev nBuf : Space → Nat
  | .hbm => 55
  | .vmem => 29
  | .smem => 0
  | _ => 0

abbrev bufTy : (tb : Table) → Fin (tcTables nBuf tb) → BufTy
  | .hbm, ⟨0, _⟩ => ⟨S8192x4096, .f32⟩
  | .hbm, ⟨1, _⟩ => ⟨S4096x1376, .i32⟩
  | .hbm, ⟨2, _⟩ => ⟨S32x11008, .f32⟩
  | .hbm, ⟨3, _⟩ => ⟨S32x1376, .i32⟩
  | .hbm, ⟨4, _⟩ => ⟨S4096x1376, .i32⟩
  | .hbm, ⟨5, _⟩ => ⟨S32x11008, .f32⟩
  | .hbm, ⟨6, _⟩ => ⟨S32x1376, .i32⟩
  | .hbm, ⟨7, _⟩ => ⟨S11008x512, .i32⟩
  | .hbm, ⟨8, _⟩ => ⟨S86x4096, .f32⟩
  | .hbm, ⟨9, _⟩ => ⟨S86x512, .i32⟩
  | .hbm, ⟨10, _⟩ => ⟨S8192x4096, .bf16⟩
  | .hbm, ⟨11, _⟩ => ⟨S_, .i32⟩
  | .hbm, ⟨12, _⟩ => ⟨S_, .i32⟩
  | .hbm, ⟨13, _⟩ => ⟨S4096x1408, .i32⟩
  | .hbm, ⟨14, _⟩ => ⟨S_, .i32⟩
  | .hbm, ⟨15, _⟩ => ⟨S_, .f32⟩
  | .hbm, ⟨16, _⟩ => ⟨S32x11264, .f32⟩
  | .hbm, ⟨17, _⟩ => ⟨S32x11x128x8, .f32⟩
  | .hbm, ⟨18, _⟩ => ⟨S32x11x8x128, .f32⟩
  | .hbm, ⟨19, _⟩ => ⟨S32x11264, .f32⟩
  | .hbm, ⟨20, _⟩ => ⟨S_, .i32⟩
  | .hbm, ⟨21, _⟩ => ⟨S_, .i32⟩
  | .hbm, ⟨22, _⟩ => ⟨S32x1408, .i32⟩
  | .hbm, ⟨23, _⟩ => ⟨S_, .i32⟩
  | .hbm, ⟨24, _⟩ => ⟨S_, .i32⟩
  | .hbm, ⟨25, _⟩ => ⟨S4096x1408, .i32⟩
  | .hbm, ⟨26, _⟩ => ⟨S_, .i32⟩
  | .hbm, ⟨27, _⟩ => ⟨S_, .f32⟩
  | .hbm, ⟨28, _⟩ => ⟨S32x11264, .f32⟩
  | .hbm, ⟨29, _⟩ => ⟨S32x11x128x8, .f32⟩
  | .hbm, ⟨30, _⟩ => ⟨S32x11x8x128, .f32⟩
  | .hbm, ⟨31, _⟩ => ⟨S32x11264, .f32⟩
  | .hbm, ⟨32, _⟩ => ⟨S_, .i32⟩
  | .hbm, ⟨33, _⟩ => ⟨S_, .i32⟩
  | .hbm, ⟨34, _⟩ => ⟨S32x1408, .i32⟩
  | .hbm, ⟨35, _⟩ => ⟨S8192x11264, .bf16⟩
  | .hbm, ⟨36, _⟩ => ⟨S8192x11x8x128, .bf16⟩
  | .hbm, ⟨37, _⟩ => ⟨S8192x11x128x8, .bf16⟩
  | .hbm, ⟨38, _⟩ => ⟨S8192x11264, .bf16⟩
  | .hbm, ⟨39, _⟩ => ⟨S_, .i32⟩
  | .hbm, ⟨40, _⟩ => ⟨S_, .i32⟩
  | .hbm, ⟨41, _⟩ => ⟨S11264x512, .i32⟩
  | .hbm, ⟨42, _⟩ => ⟨S_, .i32⟩
  | .hbm, ⟨43, _⟩ => ⟨S_, .f32⟩
  | .hbm, ⟨44, _⟩ => ⟨S88x4096, .f32⟩
  | .hbm, ⟨45, _⟩ => ⟨S88x4x128x8, .f32⟩
  | .hbm, ⟨46, _⟩ => ⟨S88x4x8x128, .f32⟩
  | .hbm, ⟨47, _⟩ => ⟨S88x4096, .f32⟩
  | .hbm, ⟨48, _⟩ => ⟨S_, .i32⟩
  | .hbm, ⟨49, _⟩ => ⟨S_, .i32⟩
  | .hbm, ⟨50, _⟩ => ⟨S88x512, .i32⟩
  | .hbm, ⟨51, _⟩ => ⟨S8192x4096, .f32⟩
  | .hbm, ⟨52, _⟩ => ⟨S8192x4x8x128, .f32⟩
  | .hbm, ⟨53, _⟩ => ⟨S8192x4x128x8, .f32⟩
  | .hbm, ⟨54, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .i32⟩
  | .local _ .vmem, ⟨3, _⟩ => ⟨S1024x128, .i32⟩
  | .local _ .vmem, ⟨4, _⟩ => ⟨S8x1024, .f32⟩
  | .local _ .vmem, ⟨5, _⟩ => ⟨S8x1024, .f32⟩
  | .local _ .vmem, ⟨6, _⟩ => ⟨S8x128, .i32⟩
  | .local _ .vmem, ⟨7, _⟩ => ⟨S8x128, .i32⟩
  | .local _ .vmem, ⟨8, _⟩ => ⟨S1024x128, .i32⟩
  | .local _ .vmem, ⟨9, _⟩ => ⟨S1024x128, .i32⟩
  | .local _ .vmem, ⟨10, _⟩ => ⟨S8x1024, .f32⟩
  | .local _ .vmem, ⟨11, _⟩ => ⟨S8x1024, .f32⟩
  | .local _ .vmem, ⟨12, _⟩ => ⟨S8x128, .i32⟩
  | .local _ .vmem, ⟨13, _⟩ => ⟨S8x128, .i32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x128, .i32⟩
  | .local _ .vmem, ⟨21, _⟩ => ⟨S1024x128, .i32⟩
  | .local _ .vmem, ⟨22, _⟩ => ⟨S8x1024, .f32⟩
  | .local _ .vmem, ⟨23, _⟩ => ⟨S8x1024, .f32⟩
  | .local _ .vmem, ⟨24, _⟩ => ⟨S8x128, .i32⟩
  | .local _ .vmem, ⟨25, _⟩ => ⟨S8x128, .i32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_c_2 : Ref sig .tc := ⟨.hbm, 23, rfl⟩
abbrev main_call3_v0 : Ref sig .tc := ⟨.hbm, 24, rfl⟩
abbrev main_v7 : Ref sig .tc := ⟨.hbm, 25, rfl⟩
abbrev main_c_3 : Ref sig .tc := ⟨.hbm, 26, rfl⟩
abbrev main_call4_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_call5_v0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_call6_v0 : Ref sig .tc := ⟨.hbm, 40, rfl⟩
abbrev main_v17 : Ref sig .tc := ⟨.hbm, 41, rfl⟩
abbrev main_c_6 : Ref sig .tc := ⟨.hbm, 42, rfl⟩
abbrev main_call7_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_call8_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨3, ![8, 11, 4], ![false, false, false]⟩

def k0_mult1 : BitVec 32 :=
  let c0_i32_1 : BitVec 32 := 0#32
  let c256_i32 : BitVec 32 := 256#32
  let v3 : BitVec 32 := Scalar.muli c0_i32_1 c256_i32
  v3
def k0_off1 (c0_i32_1 : BitVec 32) : Fin 2 → Nat :=
  let c0 : Index := 0#32
  let c256_i32 : BitVec 32 := 256#32
  let v3 : BitVec 32 := Scalar.muli c0_i32_1 c256_i32
  let v4 : BitVec 32 := v3
  let v6 : Index := Scalar.indexCast v4
  ![0, v6.toNat]
def k0_off2 (c0_i32_1 : BitVec 32) : Fin 2 → Nat :=
  let c256_i32 : BitVec 32 := 256#32
  let v3 : BitVec 32 := Scalar.muli c0_i32_1 c256_i32
  let v4 : BitVec 32 := v3
  let v9 : Index := Scalar.indexCast v4
  let c0_2 : Index := 0#32
  ![v9.toNat, 0]
def k0_off3 (c0_i32_1 : BitVec 32) : Fin 2 → Nat :=
  let c2_i32 : BitVec 32 := 2#32
  let v5 : BitVec 32 := Scalar.muli c0_i32_1 c2_i32
  let v12 : Index := Scalar.indexCast v5
  let c0_3 : Index := 0#32
  ![v12.toNat, 0]
def k0_off4 (c0_i32_1 : BitVec 32) : Fin 2 → Nat :=
  let c2_i32 : BitVec 32 := 2#32
  let v5 : BitVec 32 := Scalar.muli c0_i32_1 c2_i32
  let v16 : Index := Scalar.indexCast v5
  let c0_4 : Index := 0#32
  ![v16.toNat, 0]
def k0_mult2 : BitVec 32 :=
  let c0_i32_1 : BitVec 32 := 0#32
  let c256_i32 : BitVec 32 := 256#32
  let v3 : BitVec 32 := Scalar.muli c0_i32_1 c256_i32
  let v4 : BitVec 32 := v3
  let c128_i32 : BitVec 32 := 128#32
  let v107 : BitVec 32 := Scalar.addi v4 c128_i32
  v107
def k0_off5 (c0_i32_1 : BitVec 32) : Fin 2 → Nat :=
  let c256_i32 : BitVec 32 := 256#32
  let v3 : BitVec 32 := Scalar.muli c0_i32_1 c256_i32
  let v4 : BitVec 32 := v3
  let c128_i32 : BitVec 32 := 128#32
  let v107 : BitVec 32 := Scalar.addi v4 c128_i32
  let v108 : BitVec 32 := v107
  let v109 : Index := Scalar.indexCast v108
  let c0_29 : Index := 0#32
  ![v109.toNat, 0]
def k0_off6 (c0_i32_1 : BitVec 32) : Fin 2 → Nat :=
  let c2_i32 : BitVec 32 := 2#32
  let v5 : BitVec 32 := Scalar.muli c0_i32_1 c2_i32
  let c1_i32 : BitVec 32 := 1#32
  let v112 : BitVec 32 := Scalar.addi v5 c1_i32
  let v113 : Index := Scalar.indexCast v112
  let c0_30 : Index := 0#32
  ![v113.toNat, 0]
def k0_off7 (c0_i32_1 : BitVec 32) : Fin 2 → Nat :=
  let c2_i32 : BitVec 32 := 2#32
  let v5 : BitVec 32 := Scalar.muli c0_i32_1 c2_i32
  let c1_i32_31 : BitVec 32 := 1#32
  let v117 : BitVec 32 := Scalar.addi v5 c1_i32_31
  let v118 : Index := Scalar.indexCast v117
  let c0_32 : Index := 0#32
  ![v118.toNat, 0]
def k0_mult3 : BitVec 32 :=
  let c0_i32_1 : BitVec 32 := 0#32
  let c256_i32 : BitVec 32 := 256#32
  let v3 : BitVec 32 := Scalar.muli c0_i32_1 c256_i32
  let v4 : BitVec 32 := v3
  let c128_i32_104 : BitVec 32 := 128#32
  let v314 : BitVec 32 := Scalar.addi v4 c128_i32_104
  v314
def k0_mult4 : BitVec 32 :=
  let c1_i32_147 : BitVec 32 := 1#32
  let c256_i32_148 : BitVec 32 := 256#32
  let v423 : BitVec 32 := Scalar.muli c1_i32_147 c256_i32_148
  v423
def k0_mult5 : BitVec 32 :=
  let c1_i32_147 : BitVec 32 := 1#32
  let c256_i32_148 : BitVec 32 := 256#32
  let v423 : BitVec 32 := Scalar.muli c1_i32_147 c256_i32_148
  let v424 : BitVec 32 := v423
  let c128_i32_186 : BitVec 32 := 128#32
  let v527 : BitVec 32 := Scalar.addi v424 c128_i32_186
  v527
def k0_mult6 : BitVec 32 :=
  let c1_i32_147 : BitVec 32 := 1#32
  let c256_i32_148 : BitVec 32 := 256#32
  let v423 : BitVec 32 := Scalar.muli c1_i32_147 c256_i32_148
  let v424 : BitVec 32 := v423
  let c128_i32_264 : BitVec 32 := 128#32
  let v734 : BitVec 32 := Scalar.addi v424 c128_i32_264
  v734
def k0_mult7 : BitVec 32 :=
  let c2_i32_307 : BitVec 32 := 2#32
  let c256_i32_308 : BitVec 32 := 256#32
  let v843 : BitVec 32 := Scalar.muli c2_i32_307 c256_i32_308
  v843
def k0_mult8 : BitVec 32 :=
  let c2_i32_307 : BitVec 32 := 2#32
  let c256_i32_308 : BitVec 32 := 256#32
  let v843 : BitVec 32 := Scalar.muli c2_i32_307 c256_i32_308
  let v844 : BitVec 32 := v843
  let c128_i32_346 : BitVec 32 := 128#32
  let v947 : BitVec 32 := Scalar.addi v844 c128_i32_346
  v947
def k0_mult9 : BitVec 32 :=
  let c2_i32_307 : BitVec 32 := 2#32
  let c256_i32_308 : BitVec 32 := 256#32
  let v843 : BitVec 32 := Scalar.muli c2_i32_307 c256_i32_308
  let v844 : BitVec 32 := v843
  let c128_i32_424 : BitVec 32 := 128#32
  let v1154 : BitVec 32 := Scalar.addi v844 c128_i32_424
  v1154
def k0_mult10 : BitVec 32 :=
  let c3_i32 : BitVec 32 := 3#32
  let c256_i32_467 : BitVec 32 := 256#32
  let v1263 : BitVec 32 := Scalar.muli c3_i32 c256_i32_467
  v1263
def k0_mult11 : BitVec 32 :=
  let c3_i32 : BitVec 32 := 3#32
  let c256_i32_467 : BitVec 32 := 256#32
  let v1263 : BitVec 32 := Scalar.muli c3_i32 c256_i32_467
  let v1264 : BitVec 32 := v1263
  let c128_i32_505 : BitVec 32 := 128#32
  let v1367 : BitVec 32 := Scalar.addi v1264 c128_i32_505
  v1367
def k0_mult12 : BitVec 32 :=
  let c3_i32 : BitVec 32 := 3#32
  let c256_i32_467 : BitVec 32 := 256#32
  let v1263 : BitVec 32 := Scalar.muli c3_i32 c256_i32_467
  let v1264 : BitVec 32 := v1263
  let c128_i32_583 : BitVec 32 := 128#32
  let v1574 : BitVec 32 := Scalar.addi v1264 c128_i32_583
  v1574
def k0_cond2 (i : grid0.Coords) : BitVec 1 :=
  let arg2 : BitVec 32 := BitVec.ofNat 32 (i 2).val
  let c3_i32_627 : BitVec 32 := 3#32
  let v1683 : BitVec 1 := Scalar.cmpi .eq arg2 c3_i32_627
  let v1684 : BitVec 32 := Scalar.extui v1683
  let c0_i32_628 : BitVec 32 := 0#32
  let v1685 : BitVec 1 := Scalar.cmpi .ne v1684 c0_i32_628
  v1685

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![8, 4, 11], ![false, false, false]⟩

def k1_mult1 : BitVec 32 :=
  let c0_i32_1 : BitVec 32 := 0#32
  let c256_i32 : BitVec 32 := 256#32
  let v3 : BitVec 32 := Scalar.muli c0_i32_1 c256_i32
  v3
def k1_off1 (c0_i32_1 : BitVec 32) : Fin 2 → Nat :=
  let c0 : Index := 0#32
  let c256_i32 : BitVec 32 := 256#32
  let v3 : BitVec 32 := Scalar.muli c0_i32_1 c256_i32
  let v4 : BitVec 32 := v3
  let v6 : Index := Scalar.indexCast v4
  ![0, v6.toNat]
def k1_off2 (c0_i32_1 : BitVec 32) : Fin 2 → Nat :=
  let c256_i32 : BitVec 32 := 256#32
  let v3 : BitVec 32 := Scalar.muli c0_i32_1 c256_i32
  let v4 : BitVec 32 := v3
  let v9 : Index := Scalar.indexCast v4
  let c0_2 : Index := 0#32
  ![v9.toNat, 0]
def k1_off3 (c0_i32_1 : BitVec 32) : Fin 2 → Nat :=
  let c2_i32 : BitVec 32 := 2#32
  let v5 : BitVec 32 := Scalar.muli c0_i32_1 c2_i32
  let v12 : Index := Scalar.indexCast v5
  let c0_3 : Index := 0#32
  ![v12.toNat, 0]
def k1_off4 (c0_i32_1 : BitVec 32) : Fin 2 → Nat :=
  let c2_i32 : BitVec 32 := 2#32
  let v5 : BitVec 32 := Scalar.muli c0_i32_1 c2_i32
  let v16 : Index := Scalar.indexCast v5
  let c0_4 : Index := 0#32
  ![v16.toNat, 0]
def k1_mult2 : BitVec 32 :=
  let c0_i32_1 : BitVec 32 := 0#32
  let c256_i32 : BitVec 32 := 256#32
  let v3 : BitVec 32 := Scalar.muli c0_i32_1 c256_i32
  let v4 : BitVec 32 := v3
  let c128_i32 : BitVec 32 := 128#32
  let v107 : BitVec 32 := Scalar.addi v4 c128_i32
  v107
def k1_off5 (c0_i32_1 : BitVec 32) : Fin 2 → Nat :=
  let c256_i32 : BitVec 32 := 256#32
  let v3 : BitVec 32 := Scalar.muli c0_i32_1 c256_i32
  let v4 : BitVec 32 := v3
  let c128_i32 : BitVec 32 := 128#32
  let v107 : BitVec 32 := Scalar.addi v4 c128_i32
  let v108 : BitVec 32 := v107
  let v109 : Index := Scalar.indexCast v108
  let c0_29 : Index := 0#32
  ![v109.toNat, 0]
def k1_off6 (c0_i32_1 : BitVec 32) : Fin 2 → Nat :=
  let c2_i32 : BitVec 32 := 2#32
  let v5 : BitVec 32 := Scalar.muli c0_i32_1 c2_i32
  let c1_i32 : BitVec 32 := 1#32
  let v112 : BitVec 32 := Scalar.addi v5 c1_i32
  let v113 : Index := Scalar.indexCast v112
  let c0_30 : Index := 0#32
  ![v113.toNat, 0]
def k1_off7 (c0_i32_1 : BitVec 32) : Fin 2 → Nat :=
  let c2_i32 : BitVec 32 := 2#32
  let v5 : BitVec 32 := Scalar.muli c0_i32_1 c2_i32
  let c1_i32_31 : BitVec 32 := 1#32
  let v117 : BitVec 32 := Scalar.addi v5 c1_i32_31
  let v118 : Index := Scalar.indexCast v117
  let c0_32 : Index := 0#32
  ![v118.toNat, 0]
def k1_mult3 : BitVec 32 :=
  let c1_i32_69 : BitVec 32 := 1#32
  let c256_i32_70 : BitVec 32 := 256#32
  let v216 : BitVec 32 := Scalar.muli c1_i32_69 c256_i32_70
  v216
def k1_mult4 : BitVec 32 :=
  let c1_i32_69 : BitVec 32 := 1#32
  let c256_i32_70 : BitVec 32 := 256#32
  let v216 : BitVec 32 := Scalar.muli c1_i32_69 c256_i32_70
  let v217 : BitVec 32 := v216
  let c128_i32_108 : BitVec 32 := 128#32
  let v320 : BitVec 32 := Scalar.addi v217 c128_i32_108
  v320
def k1_mult5 : BitVec 32 :=
  let c2_i32_151 : BitVec 32 := 2#32
  let c256_i32_152 : BitVec 32 := 256#32
  let v429 : BitVec 32 := Scalar.muli c2_i32_151 c256_i32_152
  v429
def k1_mult6 : BitVec 32 :=
  let c2_i32_151 : BitVec 32 := 2#32
  let c256_i32_152 : BitVec 32 := 256#32
  let v429 : BitVec 32 := Scalar.muli c2_i32_151 c256_i32_152
  let v430 : BitVec 32 := v429
  let c128_i32_190 : BitVec 32 := 128#32
  let v533 : BitVec 32 := Scalar.addi v430 c128_i32_190
  v533
def k1_mult7 : BitVec 32 :=
  let c3_i32 : BitVec 32 := 3#32
  let c256_i32_233 : BitVec 32 := 256#32
  let v642 : BitVec 32 := Scalar.muli c3_i32 c256_i32_233
  v642
def k1_mult8 : BitVec 32 :=
  let c3_i32 : BitVec 32 := 3#32
  let c256_i32_233 : BitVec 32 := 256#32
  let v642 : BitVec 32 := Scalar.muli c3_i32 c256_i32_233
  let v643 : BitVec 32 := v642
  let c128_i32_271 : BitVec 32 := 128#32
  let v746 : BitVec 32 := Scalar.addi v643 c128_i32_271
  v746
def k1_cond2 (i : grid1.Coords) : BitVec 1 :=
  let arg2 : BitVec 32 := BitVec.ofNat 32 (i 2).val
  let c10_i32 : BitVec 32 := 10#32
  let v855 : BitVec 1 := Scalar.cmpi .eq arg2 c10_i32
  let v856 : BitVec 32 := Scalar.extui v855
  let c0_i32_315 : BitVec 32 := 0#32
  let v857 : BitVec 1 := Scalar.cmpi .ne v856 c0_i32_315
  v857

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S8x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  pads_S4096x1376_S4096x1408_000_0320 : S4096x1376.Pads (![0, 0] : Fin 2 → Nat) ![0, 32] ![0, 0] S4096x1408
  h_S_ : 0 < S_.numel
  pads_S32x11008_S32x11264_000_02560 : S32x11008.Pads (![0, 0] : Fin 2 → Nat) ![0, 256] ![0, 0] S32x11264
  shapeCasts_S32x11264_S32x11x128x8 : S32x11264.ShapeCasts S32x11x128x8
  transposes_S32x11x128x8_S32x11x8x128_0_1_3_2 : S32x11x128x8.Transposes [0, 1, 3, 2] S32x11x8x128
  shapeCasts_S32x11x8x128_S32x11264 : S32x11x8x128.ShapeCasts S32x11264
  pads_S32x1376_S32x1408_000_0320 : S32x1376.Pads (![0, 0] : Fin 2 → Nat) ![0, 32] ![0, 0] S32x1408
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1024x256 : 0 < S1024x256.numel
  shapeCasts_S1024x256_S1024x256 : S1024x256.ShapeCasts S1024x256
  h_S128x128 : 0 < S128x128.numel
  shapeCasts_S128x128_S128x128 : S128x128.ShapeCasts S128x128
  h_S1x1024 : 0 < S1x1024.numel
  shapeCasts_S1x1024_S1024 : S1x1024.ShapeCasts S1024
  shapeCasts_S1024_S1x1024 : S1024.ShapeCasts S1x1024
  h_S1x128 : 0 < S1x128.numel
  shapeCasts_S1x128_S128 : S1x128.ShapeCasts S128
  shapeCasts_S128_S1x128 : S128.ShapeCasts S1x128
  concatenates_S128x128_S128x128_S128x128_S128x128_S128x128_S128x128_S128x128_S128x128_S128x1024_d1 : Shape.Concatenates [S128x128, S128x128, S128x128, S128x128, S128x128, S128x128, S128x128, S128x128] S128x1024 1
  concatenates_S1x128_S1x128_S1x128_S1x128_S1x128_S1x128_S1x128_S1x128_S1x1024_d1 : Shape.Concatenates [S1x128, S1x128, S1x128, S1x128, S1x128, S1x128, S1x128, S1x128] S1x1024 1
  broadcasts_S1x1024_S128x1024 : S1x1024.Broadcasts S128x1024
  concatenates_S128x1024_S128x1024_S256x1024_d0 : Shape.Concatenates [S128x1024, S128x1024] S256x1024 0
  packedbf16_S1024x1024_S1024x1024_0_0 : (Rect.unit (s := S1024x1024) ![0, 0] S1024x1024.size inb_S1024x1024_S1024x1024_0_0).PackedRows (EltTy.packing .bf16)
  shapeCasts_S8192x11264_S8192x11x8x128 : S8192x11264.ShapeCasts S8192x11x8x128
  transposes_S8192x11x8x128_S8192x11x128x8_0_1_3_2 : S8192x11x8x128.Transposes [0, 1, 3, 2] S8192x11x128x8
  shapeCasts_S8192x11x128x8_S8192x11264 : S8192x11x128x8.ShapeCasts S8192x11264
  pads_S11008x512_S11264x512_02560_000 : S11008x512.Pads (![0, 0] : Fin 2 → Nat) ![256, 0] ![0, 0] S11264x512
  pads_S86x4096_S88x4096_020_000 : S86x4096.Pads (![0, 0] : Fin 2 → Nat) ![2, 0] ![0, 0] S88x4096
  shapeCasts_S88x4096_S88x4x128x8 : S88x4096.ShapeCasts S88x4x128x8
  transposes_S88x4x128x8_S88x4x8x128_0_1_3_2 : S88x4x128x8.Transposes [0, 1, 3, 2] S88x4x8x128
  shapeCasts_S88x4x8x128_S88x4096 : S88x4x8x128.ShapeCasts S88x4096
  pads_S86x512_S88x512_020_000 : S86x512.Pads (![0, 0] : Fin 2 → Nat) ![2, 0] ![0, 0] S88x512
  shapeCasts_S8192x4096_S8192x4x8x128 : S8192x4096.ShapeCasts S8192x4x8x128
  transposes_S8192x4x8x128_S8192x4x128x8_0_1_3_2 : S8192x4x8x128.Transposes [0, 1, 3, 2] S8192x4x128x8
  shapeCasts_S8192x4x128x8_S8192x4096 : S8192x4x128x8.ShapeCasts S8192x4096
  dot_S1024x256_S256x1024_S1024x1024_1_0_0_1_n_n_wf : DotDims.WF S1024x256 S256x1024 S1024x1024 [1] [0] [0] [1] [] []
  hrank0 : 0 < grid0.rank
  k0_mult1_dvd : 256 ∣ k0_mult1.toNat
  k0_off1_inb : ∀ (r : Fin 4), ∀ a, (k0_off1 (BitVec.ofNat 32 r.val)) a + S1024x256.size a ≤ S1024x1024.size a
  k0_off2_inb : ∀ (r : Fin 4), ∀ a, (k0_off2 (BitVec.ofNat 32 r.val)) a + S128x128.size a ≤ S1024x128.size a
  k0_off3_inb : ∀ (r : Fin 4), ∀ a, (k0_off3 (BitVec.ofNat 32 r.val)) a + S1x1024.size a ≤ S8x1024.size a
  k0_off4_inb : ∀ (r : Fin 4), ∀ a, (k0_off4 (BitVec.ofNat 32 r.val)) a + S1x128.size a ≤ S8x128.size a
  k0_mult2_dvd : 128 ∣ k0_mult2.toNat
  k0_off5_inb : ∀ (r : Fin 4), ∀ a, (k0_off5 (BitVec.ofNat 32 r.val)) a + S128x128.size a ≤ S1024x128.size a
  k0_off6_inb : ∀ (r : Fin 4), ∀ a, (k0_off6 (BitVec.ofNat 32 r.val)) a + S1x1024.size a ≤ S8x1024.size a
  k0_off7_inb : ∀ (r : Fin 4), ∀ a, (k0_off7 (BitVec.ofNat 32 r.val)) a + S1x128.size a ≤ S8x128.size a
  k0_mult3_dvd : 128 ∣ k0_mult3.toNat
  k0_mult4_dvd : 256 ∣ k0_mult4.toNat
  k0_mult5_dvd : 128 ∣ k0_mult5.toNat
  k0_mult6_dvd : 128 ∣ k0_mult6.toNat
  k0_mult7_dvd : 256 ∣ k0_mult7.toNat
  k0_mult8_dvd : 128 ∣ k0_mult8.toNat
  k0_mult9_dvd : 128 ∣ k0_mult9.toNat
  k0_mult10_dvd : 256 ∣ k0_mult10.toNat
  k0_mult11_dvd : 128 ∣ k0_mult11.toNat
  k0_mult12_dvd : 128 ∣ k0_mult12.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x1408.size a
  hwx0_1 : ∀ i : grid0.Coords, EltTy.bits .i32 = 32 ∨ (Rect.block (s := S4096x1408) S1024x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x11264.size a
  hwx0_2 : ∀ i : grid0.Coords, EltTy.bits .f32 = 32 ∨ (Rect.block (s := S32x11264) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x1408.size a
  hwx0_3 : ∀ i : grid0.Coords, EltTy.bits .i32 = 32 ∨ (Rect.block (s := S32x1408) S8x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S4096x1408.size a
  hwx0_4 : ∀ i : grid0.Coords, EltTy.bits .i32 = 32 ∨ (Rect.block (s := S4096x1408) S1024x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S32x11264.size a
  hwx0_5 : ∀ i : grid0.Coords, EltTy.bits .f32 = 32 ∨ (Rect.block (s := S32x11264) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S32x1408.size a
  hwx0_6 : ∀ i : grid0.Coords, EltTy.bits .i32 = 32 ∨ (Rect.block (s := S32x1408) S8x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x11264.size a
  hwx0_7 : ∀ i : grid0.Coords, EltTy.bits .bf16 = 32 ∨ (Rect.block (s := S8192x11264) S1024x1024.size (cc0_transform_7 i) (hinb0_7 i)).WholeWords (EltTy.packing .bf16)
  hrank1 : 0 < grid1.rank
  k1_mult1_dvd : 256 ∣ k1_mult1.toNat
  k1_off1_inb : ∀ (r : Fin 4), ∀ a, (k1_off1 (BitVec.ofNat 32 r.val)) a + S1024x256.size a ≤ S1024x1024.size a
  k1_off2_inb : ∀ (r : Fin 4), ∀ a, (k1_off2 (BitVec.ofNat 32 r.val)) a + S128x128.size a ≤ S1024x128.size a
  k1_off3_inb : ∀ (r : Fin 4), ∀ a, (k1_off3 (BitVec.ofNat 32 r.val)) a + S1x1024.size a ≤ S8x1024.size a
  k1_off4_inb : ∀ (r : Fin 4), ∀ a, (k1_off4 (BitVec.ofNat 32 r.val)) a + S1x128.size a ≤ S8x128.size a
  k1_mult2_dvd : 128 ∣ k1_mult2.toNat
  k1_off5_inb : ∀ (r : Fin 4), ∀ a, (k1_off5 (BitVec.ofNat 32 r.val)) a + S128x128.size a ≤ S1024x128.size a
  k1_off6_inb : ∀ (r : Fin 4), ∀ a, (k1_off6 (BitVec.ofNat 32 r.val)) a + S1x1024.size a ≤ S8x1024.size a
  k1_off7_inb : ∀ (r : Fin 4), ∀ a, (k1_off7 (BitVec.ofNat 32 r.val)) a + S1x128.size a ≤ S8x128.size a
  k1_mult3_dvd : 256 ∣ k1_mult3.toNat
  k1_mult4_dvd : 128 ∣ k1_mult4.toNat
  k1_mult5_dvd : 256 ∣ k1_mult5.toNat
  k1_mult6_dvd : 128 ∣ k1_mult6.toNat
  k1_mult7_dvd : 256 ∣ k1_mult7.toNat
  k1_mult8_dvd : 128 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x11264.size a
  hwx1_0 : ∀ i : grid1.Coords, EltTy.bits .bf16 = 32 ∨ (Rect.block (s := S8192x11264) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S11264x512.size a
  hwx1_1 : ∀ i : grid1.Coords, EltTy.bits .i32 = 32 ∨ (Rect.block (s := S11264x512) S1024x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S88x4096.size a
  hwx1_2 : ∀ i : grid1.Coords, EltTy.bits .f32 = 32 ∨ (Rect.block (s := S88x4096) S8x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S88x512.size a
  hwx1_3 : ∀ i : grid1.Coords, EltTy.bits .i32 = 32 ∨ (Rect.block (s := S88x512) S8x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S8x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v16) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S8 : Shape := ⟨1, ![8]⟩
abbrev S_ : Shape := ⟨0, ![]⟩
abbrev S4096x1376x1 : Shape := ⟨3, ![4096, 1376, 1]⟩
abbrev S1x1x8 : Shape := ⟨3, ![1, 1, 8]⟩
abbrev S4096x1376x8 : Shape := ⟨3, ![4096, 1376, 8]⟩
abbrev S4096x11008 : Shape := ⟨2, ![4096, 11008]⟩
abbrev S32x1376x1 : Shape := ⟨3, ![32, 1376, 1]⟩
abbrev S32x1376x8 : Shape := ⟨3, ![32, 1376, 8]⟩
abbrev S32x128x11008 : Shape := ⟨3, ![32, 128, 11008]⟩
abbrev S32x1x11008 : Shape := ⟨3, ![32, 1, 11008]⟩
abbrev S11008x512x1 : Shape := ⟨3, ![11008, 512, 1]⟩
abbrev S11008x512x8 : Shape := ⟨3, ![11008, 512, 8]⟩
abbrev S11008x4096 : Shape := ⟨2, ![11008, 4096]⟩
abbrev S86x512x1 : Shape := ⟨3, ![86, 512, 1]⟩
abbrev S86x512x8 : Shape := ⟨3, ![86, 512, 8]⟩
abbrev S86x128x4096 : Shape := ⟨3, ![86, 128, 4096]⟩
abbrev S86x1x4096 : Shape := ⟨3, ![86, 1, 4096]⟩
abbrev S8192x11008 : Shape := ⟨2, ![8192, 11008]⟩

abbrev nBuf : Space → Nat
  | .hbm => 131
  | .vmem => 0
  | .smem => 0
  | _ => 0

abbrev hbmTy0_0 (i : Nat) : BufTy := match i % 128 with
  | 0 => ⟨S8192x4096, .f32⟩
  | 1 => ⟨S4096x1376, .i32⟩
  | 2 => ⟨S32x11008, .f32⟩
  | 3 => ⟨S32x1376, .i32⟩
  | 4 => ⟨S4096x1376, .i32⟩
  | 5 => ⟨S32x11008, .f32⟩
  | 6 => ⟨S32x1376, .i32⟩
  | 7 => ⟨S11008x512, .i32⟩
  | 8 => ⟨S86x4096, .f32⟩
  | 9 => ⟨S86x512, .i32⟩
  | 10 => ⟨S8, .i32⟩
  | 11 => ⟨S_, .i32⟩
  | 12 => ⟨S8, .i32⟩
  | 13 => ⟨S8, .i32⟩
  | 14 => ⟨S4096x1376x1, .i32⟩
  | 15 => ⟨S1x1x8, .i32⟩
  | 16 => ⟨S4096x1376x8, .i32⟩
  | 17 => ⟨S4096x1376x8, .i32⟩
  | 18 => ⟨S4096x1376x8, .i32⟩
  | 19 => ⟨S_, .i32⟩
  | 20 => ⟨S4096x1376x8, .i32⟩
  | 21 => ⟨S4096x1376x8, .i32⟩
  | 22 => ⟨S4096x11008, .i32⟩
  | 23 => ⟨S4096x11008, .f32⟩
  | 24 => ⟨S8, .i32⟩
  | 25 => ⟨S_, .i32⟩
  | 26 => ⟨S8, .i32⟩
  | 27 => ⟨S8, .i32⟩
  | 28 => ⟨S32x1376x1, .i32⟩
  | 29 => ⟨S1x1x8, .i32⟩
  | 30 => ⟨S32x1376x8, .i32⟩
  | 31 => ⟨S32x1376x8, .i32⟩
  | 32 => ⟨S32x1376x8, .i32⟩
  | 33 => ⟨S_, .i32⟩
  | 34 => ⟨S32x1376x8, .i32⟩
  | 35 => ⟨S32x1376x8, .i32⟩
  | 36 => ⟨S32x11008, .i32⟩
  | 37 => ⟨S32x11008, .f32⟩
  | 38 => ⟨S32x128x11008, .f32⟩
  | 39 => ⟨S32x1x11008, .f32⟩
  | 40 => ⟨S32x128x11008, .f32⟩
  | 41 => ⟨S32x128x11008, .f32⟩
  | 42 => ⟨S32x1x11008, .f32⟩
  | 43 => ⟨S32x128x11008, .f32⟩
  | 44 => ⟨S32x128x11008, .f32⟩
  | 45 => ⟨S4096x11008, .f32⟩
  | 46 => ⟨S8, .i32⟩
  | 47 => ⟨S_, .i32⟩
  | 48 => ⟨S8, .i32⟩
  | 49 => ⟨S8, .i32⟩
  | 50 => ⟨S4096x1376x1, .i32⟩
  | 51 => ⟨S1x1x8, .i32⟩
  | 52 => ⟨S4096x1376x8, .i32⟩
  | 53 => ⟨S4096x1376x8, .i32⟩
  | 54 => ⟨S4096x1376x8, .i32⟩
  | 55 => ⟨S_, .i32⟩
  | 56 => ⟨S4096x1376x8, .i32⟩
  | 57 => ⟨S4096x1376x8, .i32⟩
  | 58 => ⟨S4096x11008, .i32⟩
  | 59 => ⟨S4096x11008, .f32⟩
  | 60 => ⟨S8, .i32⟩
  | 61 => ⟨S_, .i32⟩
  | 62 => ⟨S8, .i32⟩
  | 63 => ⟨S8, .i32⟩
  | 64 => ⟨S32x1376x1, .i32⟩
  | 65 => ⟨S1x1x8, .i32⟩
  | 66 => ⟨S32x1376x8, .i32⟩
  | 67 => ⟨S32x1376x8, .i32⟩
  | 68 => ⟨S32x1376x8, .i32⟩
  | 69 => ⟨S_, .i32⟩
  | 70 => ⟨S32x1376x8, .i32⟩
  | 71 => ⟨S32x1376x8, .i32⟩
  | 72 => ⟨S32x11008, .i32⟩
  | 73 => ⟨S32x11008, .f32⟩
  | 74 => ⟨S32x128x11008, .f32⟩
  | 75 => ⟨S32x1x11008, .f32⟩
  | 76 => ⟨S32x128x11008, .f32⟩
  | 77 => ⟨S32x128x11008, .f32⟩
  | 78 => ⟨S32x1x11008, .f32⟩
  | 79 => ⟨S32x128x11008, .f32⟩
  | 80 => ⟨S32x128x11008, .f32⟩
  | 81 => ⟨S4096x11008, .f32⟩
  | 82 => ⟨S8, .i32⟩
  | 83 => ⟨S_, .i32⟩
  | 84 => ⟨S8, .i32⟩
  | 85 => ⟨S8, .i32⟩
  | 86 => ⟨S11008x512x1, .i32⟩
  | 87 => ⟨S1x1x8, .i32⟩
  | 88 => ⟨S11008x512x8, .i32⟩
  | 89 => ⟨S11008x512x8, .i32⟩
  | 90 => ⟨S11008x512x8, .i32⟩
  | 91 => ⟨S_, .i32⟩
  | 92 => ⟨S11008x512x8, .i32⟩
  | 93 => ⟨S11008x512x8, .i32⟩
  | 94 => ⟨S11008x4096, .i32⟩
  | 95 => ⟨S11008x4096, .f32⟩
  | 96 => ⟨S8, .i32⟩
  | 97 => ⟨S_, .i32⟩
  | 98 => ⟨S8, .i32⟩
  | 99 => ⟨S8, .i32⟩
  | 100 => ⟨S86x512x1, .i32⟩
  | 101 => ⟨S1x1x8, .i32⟩
  | 102 => ⟨S86x512x8, .i32⟩
  | 103 => ⟨S86x512x8, .i32⟩
  | 104 => ⟨S86x512x8, .i32⟩
  | 105 => ⟨S_, .i32⟩
  | 106 => ⟨S86x512x8, .i32⟩
  | 107 => ⟨S86x512x8, .i32⟩
  | 108 => ⟨S86x4096, .i32⟩
  | 109 => ⟨S86x4096, .f32⟩
  | 110 => ⟨S86x128x4096, .f32⟩
  | 111 => ⟨S86x1x4096, .f32⟩
  | 112 => ⟨S86x128x4096, .f32⟩
  | 113 => ⟨S86x128x4096, .f32⟩
  | 114 => ⟨S86x1x4096, .f32⟩
  | 115 => ⟨S86x128x4096, .f32⟩
  | 116 => ⟨S86x128x4096, .f32⟩
  | 117 => ⟨S11008x4096, .f32⟩
  | 118 => ⟨S8192x11008, .f32⟩
  | 119 => ⟨S8192x11008, .f32⟩
  | 120 => ⟨S8192x11008, .f32⟩
  | 121 => ⟨S_, .f32⟩
  | 122 => ⟨S8192x11008, .f32⟩
  | 123 => ⟨S8192x11008, .f32⟩
  | 124 => ⟨S_, .f32⟩
  | 125 => ⟨S8192x11008, .f32⟩
  | 126 => ⟨S8192x11008, .f32⟩
  | 127 => ⟨S8192x11008, .f32⟩
  | _ => ⟨S8192x4096, .f32⟩

abbrev hbmTy0_1 (i : Nat) : BufTy := match i % 128 with
  | 0 => ⟨S8192x11008, .f32⟩
  | 1 => ⟨S8192x11008, .f32⟩
  | 2 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_c_9 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_10 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x1376_S4096x1376x1_0_1 : S4096x1376.BroadcastsInDim S4096x1376x1 (![0, 1] : Fin 2 → Fin S4096x1376x1.rank)
  bcast_S8_S1x1x8_2 : S8.BroadcastsInDim S1x1x8 (![2] : Fin 1 → Fin S1x1x8.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  bcast_S32x1376_S32x1376x1_0_1 : S32x1376.BroadcastsInDim S32x1376x1 (![0, 1] : Fin 2 → Fin S32x1376x1.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008x512_S11008x512x1_0_1 : S11008x512.BroadcastsInDim S11008x512x1 (![0, 1] : Fin 2 → Fin S11008x512x1.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  bcast_S86x512_S86x512x1_0_1 : S86x512.BroadcastsInDim S86x512x1 (![0, 1] : Fin 2 → Fin S86x512x1.rank)
  bcast_S86x512x1_S86x512x8_0_1_2 : S86x512x1.BroadcastsInDim S86x512x8 (![0, 1, 2] : Fin 3 → Fin S86x512x8.rank)
  bcast_S1x1x8_S86x512x8_0_1_2 : S1x1x8.BroadcastsInDim S86x512x8 (![0, 1, 2] : Fin 3 → Fin S86x512x8.rank)
  bcast_S_S86x512x8 : S_.BroadcastsInDim S86x512x8 (![] : Fin 0 → Fin S86x512x8.rank)
  shapeCasts_S86x512x8_S86x4096 : S86x512x8.ShapeCasts S86x4096
  shapeCasts_S11008x4096_S86x128x4096 : S11008x4096.ShapeCasts S86x128x4096
  bcast_S86x4096_S86x1x4096_0_2 : S86x4096.BroadcastsInDim S86x1x4096 (![0, 2] : Fin 2 → Fin S86x1x4096.rank)
  bcast_S86x1x4096_S86x128x4096_0_1_2 : S86x1x4096.BroadcastsInDim S86x128x4096 (![0, 1, 2] : Fin 3 → Fin S86x128x4096.rank)
  shapeCasts_S86x128x4096_S11008x4096 : S86x128x4096.ShapeCasts S11008x4096
  bcast_S_S8192x11008 : S_.BroadcastsInDim S8192x11008 (![] : Fin 0 → Fin S8192x11008.rank)
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.K.Kit0.lean ====
import proofs.«429270_j84954453115513_3_alg».proof.Proof.Gen.Kernel.Launch
import proofs.«429270_j84954453115513_3_alg».proof.Proof.Gen.Kernel.Skeleton
import proofs.«429270_j84954453115513_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem owns_of_unread {sp : Space} {sh : Shape} {e : EltTy} (c : Dev nD) (m : Memref sig .tc sp sh e) (h : m.IsWhole)
    (x : Vec F sh e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

abbrev rst0 (i : grid0.Coords) : Prop := (Scalar.cmpi .ne (Scalar.extui (Scalar.cmpi .eq (BitVec.ofNat 32 (i 2).val) 0#32)) 0#32) = 1#1
theorem rst0_iff : ∀ t : Fin cfg0.N, rst0 (grid0.coords t) ↔ t.val % 4 = 0 :=
  (by decide +kernel : ∀ t : Fin grid0.N, rst0 (grid0.coords t) ↔ t.val % 4 = 0)

abbrev fin0 (i : grid0.Coords) : Prop := k0_cond2 i = 1#1
theorem fin0_iff : ∀ t : Fin cfg0.N, fin0 (grid0.coords t) ↔ t.val % 4 = 3 :=
  (by decide +kernel : ∀ t : Fin grid0.N, fin0 (grid0.coords t) ↔ t.val % 4 = 3)

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)

abbrev accG : Memref sig .tc .vmem S1024x1024 .f32 := Memref.whole cc0_scratch0
abbrev accU : Memref sig .tc .vmem S1024x1024 .f32 := Memref.whole cc0_scratch1

abbrev VG0 : View sig .tc .vmem S1024x1024 .f32 := accG.view
abbrev VU0 : View sig .tc .vmem S1024x1024 .f32 := accU.view
abbrev VO0 : View sig .tc .vmem S1024x1024 .bf16 := (Memref.whole cc0_stg7_0 : Memref sig .tc .vmem S1024x1024 .bf16).view

abbrev RunSpec0 (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (accG accU : sProp 𝕄) : Type :=
  Σ' (LO : List (View.Piece (Elt F) S1024x1024 .bf16)) (LG : List (View.Piece (Elt F) S1024x1024 .f32)), { LU : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ accG ∗ accU
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LG) ∗ (∃ f, arg12.view.loc (c : Thread nD τ) ↦[arg12.view.set]{fullShare} arg12.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K }

end Cert.Kernel.Fr

end
-- ==== Proof.K.Run0A.lean ====
import proofs.«429270_j84954453115513_3_alg».proof.Proof.K.Kit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
noncomputable def run0_A (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole) (hc0 : rst0 i) (hc1 : ¬fin0 i)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) :
    RunSpec0 c i arg3 harg3 arg4 harg4 arg5 harg5 arg6 harg6 arg7 harg7 arg8 harg8 arg9 harg9 arg10 harg10 arg11 harg11 arg12 harg12 x0 x1 x2 x3 x4 x5 x6
      iprop(∃ d, owns (c : Thread nD τ) arg11 fullShare d) iprop(∃ d, owns (c : Thread nD τ) arg12 fullShare d) := by
  refine ⟨[], ?_, ?_, fun E K => ?run⟩
  case run =>
    simp only [cc0__gate_up_kernel_eq_skeleton]; unfold cc0__gate_up_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iapply owns_of_unread c arg7 harg7 x4; iexact H4
    isplitl [H5]; · iapply owns_of_unread c arg8 harg8 x5; iexact H5
    isplitl [H6]; · iapply owns_of_unread c arg9 harg9 x6; iexact H6
    isplitl [H7]; · iexists _; iexact H7
    isplitl [HS0]; · iexists _; iexact HS0
    iexists _; iexact HS1

end Cert.Kernel.Fr

end
-- ==== Proof.K.Run0B.lean ====
import proofs.«429270_j84954453115513_3_alg».proof.Proof.K.Kit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
noncomputable def run0_B (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole) (hc0 : ¬rst0 i) (hc1 : ¬fin0 i)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32) :
    RunSpec0 c i arg3 harg3 arg4 harg4 arg5 harg5 arg6 harg6 arg7 harg7 arg8 harg8 arg9 harg9 arg10 harg10 arg11 harg11 arg12 harg12 x0 x1 x2 x3 x4 x5 x6
      (owns (c : Thread nD τ) arg11 fullShare xs0) (owns (c : Thread nD τ) arg12 fullShare xs1) := by
  refine ⟨[], ?_, ?_, fun E K => ?run⟩
  case run =>
    simp only [cc0__gate_up_kernel_eq_skeleton]; unfold cc0__gate_up_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iapply owns_of_unread c arg7 harg7 x4; iexact H4
    isplitl [H5]; · iapply owns_of_unread c arg8 harg8 x5; iexact H5
    isplitl [H6]; · iapply owns_of_unread c arg9 harg9 x6; iexact H6
    isplitl [H7]; · iexists _; iexact H7
    isplitl [HS0]; · iexists _; iexact HS0
    iexists _; iexact HS1

end Cert.Kernel.Fr

end
-- ==== Proof.K.Run0C.lean ====
import proofs.«429270_j84954453115513_3_alg».proof.Proof.K.Kit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
noncomputable def run0_C (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole) (hc0 : ¬rst0 i) (hc1 : fin0 i)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32) :
    RunSpec0 c i arg3 harg3 arg4 harg4 arg5 harg5 arg6 harg6 arg7 harg7 arg8 harg8 arg9 harg9 arg10 harg10 arg11 harg11 arg12 harg12 x0 x1 x2 x3 x4 x5 x6
      (owns (c : Thread nD τ) arg11 fullShare xs0) (owns (c : Thread nD τ) arg12 fullShare xs1) := by
  refine ⟨?_, ?_, ?_, fun E K => ?run⟩
  case run =>
    simp only [cc0__gate_up_kernel_eq_skeleton]; unfold cc0__gate_up_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iapply owns_of_unread c arg7 harg7 x4; iexact H4
    isplitl [H5]; · iapply owns_of_unread c arg8 harg8 x5; iexact H5
    isplitl [H6]; · iapply owns_of_unread c arg9 harg9 x6; iexact H6
    isplitl [H7]; · iexists _; iexact H7
    isplitl [HS0]; · iexists _; iexact HS0
    iexists _; iexact HS1

end Cert.Kernel.Fr

end
-- ==== Proof.K.Pieces0.lean ====
import proofs.«429270_j84954453115513_3_alg».proof.Proof.K.Run0A
import proofs.«429270_j84954453115513_3_alg».proof.Proof.K.Run0B
import proofs.«429270_j84954453115513_3_alg».proof.Proof.K.Run0C

set_option maxRecDepth 16384

noncomputable section

namespace Cert.Kernel.Fr

open Cert.Kernel.Gen Idealize.ShloMosaic Idealize.ShloMosaic.Tactic

variable {F : FTy → Type} [FloatOps F]

variable (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)

section CaseA
variable (hc0 : rst0 i) (hc1 : ¬fin0 i) (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32)

-- Each piece list holds a piece that is the whole shape, so it covers every index.
theorem gcover0_A (y : S1024x1024.Idx) : ∃ pc ∈ (run0_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL _ S1024x1024.size (by sl_kernel_rfl) y

theorem ucover0_A (y : S1024x1024.Idx) : ∃ pc ∈ (run0_A c i arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL _ S1024x1024.size (by sl_kernel_rfl) y

def out0_A : Vec F S1024x1024 .bf16 := VO0.read (Elt F) (VO0.writes (Elt F) VO0.junk (run0_A c i arg3 harg3 arg4 harg4 arg5 harg5 arg6 harg6 arg7 harg7 arg8 harg8 arg9 harg9 arg10 harg10 arg11 harg11 arg12 harg12 hc0 hc1 x0 x1 x2 x3 x4 x5 x6).1)

def gate0_A : Vec F S1024x1024 .f32 := VG0.read (Elt F) (VG0.writes (Elt F) VG0.junk (run0_A c i arg3 harg3 arg4 harg4 arg5 harg5 arg6 harg6 arg7 harg7 arg8 harg8 arg9 harg9 arg10 harg10 arg11 harg11 arg12 harg12 hc0 hc1 x0 x1 x2 x3 x4 x5 x6).2.1)

def up0_A : Vec F S1024x1024 .f32 := VU0.read (Elt F) (VU0.writes (Elt F) VU0.junk (run0_A c i arg3 harg3 arg4 harg4 arg5 harg5 arg6 harg6 arg7 harg7 arg8 harg8 arg9 harg9 arg10 harg10 arg11 harg11 arg12 harg12 hc0 hc1 x0 x1 x2 x3 x4 x5 x6).2.2.1)

end CaseA

section CaseB
variable (hc0 : ¬rst0 i) (hc1 : ¬fin0 i) (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32)

theorem gcover0_B (y : S1024x1024.Idx) : ∃ pc ∈ (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL _ S1024x1024.size (by sl_kernel_rfl) y

theorem ucover0_B (y : S1024x1024.Idx) : ∃ pc ∈ (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL _ S1024x1024.size (by sl_kernel_rfl) y

def out0_B : Vec F S1024x1024 .bf16 := VO0.read (Elt F) (VO0.writes (Elt F) VO0.junk (run0_B c i arg3 harg3 arg4 harg4 arg5 harg5 arg6 harg6 arg7 harg7 arg8 harg8 arg9 harg9 arg10 harg10 arg11 harg11 arg12 harg12 hc0 hc1 x0 x1 x2 x3 x4 x5 x6 xs0 xs1).1)

def gate0_B : Vec F S1024x1024 .f32 := VG0.read (Elt F) (VG0.writes (Elt F) VG0.junk (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)

def up0_B : Vec F S1024x1024 .f32 := VU0.read (Elt F) (VU0.writes (Elt F) VU0.junk (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

end CaseB

section CaseC
variable (hc0 : ¬rst0 i) (hc1 : fin0 i) (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32)

theorem gcover0_C (y : S1024x1024.Idx) : ∃ pc ∈ (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL _ S1024x1024.size (by sl_kernel_rfl) y

theorem ucover0_C (y : S1024x1024.Idx) : ∃ pc ∈ (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL _ S1024x1024.size (by sl_kernel_rfl) y

theorem ocover0_C (y : S1024x1024.Idx) : ∃ pc ∈ (run0_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL _ S1024x1024.size (by sl_kernel_rfl) y

def out0_C : Vec F S1024x1024 .bf16 := VO0.read (Elt F) (VO0.writes (Elt F) VO0.junk (run0_C c i arg3 harg3 arg4 harg4 arg5 harg5 arg6 harg6 arg7 harg7 arg8 harg8 arg9 harg9 arg10 harg10 arg11 harg11 arg12 harg12 hc0 hc1 x0 x1 x2 x3 x4 x5 x6 xs0 xs1).1)

def gate0_C : Vec F S1024x1024 .f32 := VG0.read (Elt F) (VG0.writes (Elt F) VG0.junk (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)

def up0_C : Vec F S1024x1024 .f32 := VU0.read (Elt F) (VU0.writes (Elt F) VU0.junk (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

end CaseC

end Cert.Kernel.Fr

end
-- ==== Proof.K.Frame0.lean ====
import proofs.«429270_j84954453115513_3_alg».proof.Proof.K.Pieces0
import Idealize.ShloMosaic.Lib.Pipeline.TableIdle

set_option maxRecDepth 16384

noncomputable section

namespace Cert.Kernel.Fr

open Cert.Kernel.Gen Idealize.ShloMosaic Idealize.ShloMosaic.TcCoe
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem idleAt0_7 : ∀ t : Fin cfg0.N, ¬t.val % 4 = 3 → cfg0.idle 7 (grid0.coords t) = true := by decide +kernel
theorem noFlush0_7 (t : Fin cfg0.N) (h : ¬t.val % 4 = 3) : (cfg0.win 7).flush t = false :=
  Bool.eq_false_iff.mpr fun hf => h ((flush0_7 t).mp hf)
theorem liveAt0_7 : ∀ t : Fin cfg0.N, t.val % 4 = 3 → cfg0.idle 7 (grid0.coords t) = false := by decide +kernel

theorem rst0_of (t : Fin cfg0.N) (h : t.val % 4 = 0) : rst0 (grid0.coords t) := (rst0_iff t).mpr h
theorem not_rst0_of (t : Fin cfg0.N) (h : ¬t.val % 4 = 0) : ¬rst0 (grid0.coords t) := fun hh => h ((rst0_iff t).mp hh)
theorem fin0_of (t : Fin cfg0.N) (h : t.val % 4 = 3) : fin0 (grid0.coords t) := (fin0_iff t).mpr h
theorem not_fin0_of (t : Fin cfg0.N) (h : ¬t.val % 4 = 3) : ¬fin0 (grid0.coords t) := fun hh => h ((fin0_iff t).mp hh)
theorem not_fin0_of_rst (t : Fin cfg0.N) (h : t.val % 4 = 0) : ¬fin0 (grid0.coords t) :=
  not_fin0_of t (by omega)
theorem not_rst0_of_fin (t : Fin cfg0.N) (h : t.val % 4 = 3) : ¬rst0 (grid0.coords t) :=
  not_rst0_of t (by omega)

def at0_A (c : Dev nD) (t : Fin cfg0.N) (h0 : t.val % 4 = 0) : Vec F S1024x1024 .bf16 × Vec F S1024x1024 .f32 × Vec F S1024x1024 .f32 :=
  (out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (rst0_of t h0) (not_fin0_of_rst t h0) (iblk0 V c 0 t) (iblk0 V c 1 t) (iblk0 V c 2 t) (iblk0 V c 3 t) (iblk0 V c 4 t) (iblk0 V c 5 t) (iblk0 V c 6 t),
   gate0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (rst0_of t h0) (not_fin0_of_rst t h0) (iblk0 V c 0 t) (iblk0 V c 1 t) (iblk0 V c 2 t) (iblk0 V c 3 t) (iblk0 V c 4 t) (iblk0 V c 5 t) (iblk0 V c 6 t),
   up0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (rst0_of t h0) (not_fin0_of_rst t h0) (iblk0 V c 0 t) (iblk0 V c 1 t) (iblk0 V c 2 t) (iblk0 V c 3 t) (iblk0 V c 4 t) (iblk0 V c 5 t) (iblk0 V c 6 t))
def at0_B (c : Dev nD) (t : Fin cfg0.N) (h0 : ¬t.val % 4 = 0) (h3 : ¬t.val % 4 = 3) (xs0 xs1 : Vec F S1024x1024 .f32) : Vec F S1024x1024 .bf16 × Vec F S1024x1024 .f32 × Vec F S1024x1024 .f32 :=
  (out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of t h0) (not_fin0_of t h3) (iblk0 V c 0 t) (iblk0 V c 1 t) (iblk0 V c 2 t) (iblk0 V c 3 t) (iblk0 V c 4 t) (iblk0 V c 5 t) (iblk0 V c 6 t) xs0 xs1,
   gate0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of t h0) (not_fin0_of t h3) (iblk0 V c 0 t) (iblk0 V c 1 t) (iblk0 V c 2 t) (iblk0 V c 3 t) (iblk0 V c 4 t) (iblk0 V c 5 t) (iblk0 V c 6 t) xs0 xs1,
   up0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of t h0) (not_fin0_of t h3) (iblk0 V c 0 t) (iblk0 V c 1 t) (iblk0 V c 2 t) (iblk0 V c 3 t) (iblk0 V c 4 t) (iblk0 V c 5 t) (iblk0 V c 6 t) xs0 xs1)
def at0_C (c : Dev nD) (t : Fin cfg0.N) (h3 : t.val % 4 = 3) (xs0 xs1 : Vec F S1024x1024 .f32) : Vec F S1024x1024 .bf16 × Vec F S1024x1024 .f32 × Vec F S1024x1024 .f32 :=
  (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of_fin t h3) (fin0_of t h3) (iblk0 V c 0 t) (iblk0 V c 1 t) (iblk0 V c 2 t) (iblk0 V c 3 t) (iblk0 V c 4 t) (iblk0 V c 5 t) (iblk0 V c 6 t) xs0 xs1,
   gate0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of_fin t h3) (fin0_of t h3) (iblk0 V c 0 t) (iblk0 V c 1 t) (iblk0 V c 2 t) (iblk0 V c 3 t) (iblk0 V c 4 t) (iblk0 V c 5 t) (iblk0 V c 6 t) xs0 xs1,
   up0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of_fin t h3) (fin0_of t h3) (iblk0 V c 0 t) (iblk0 V c 1 t) (iblk0 V c 2 t) (iblk0 V c 3 t) (iblk0 V c 4 t) (iblk0 V c 5 t) (iblk0 V c 6 t) xs0 xs1)
def outsAt0 (c : Dev nD) : (n : ℕ) → n < cfg0.N → Vec F S1024x1024 .bf16 × Vec F S1024x1024 .f32 × Vec F S1024x1024 .f32
  | 0, hn => at0_A V c ⟨0, hn⟩ (Nat.zero_mod _)
  | n + 1, hn =>
    if h0 : (n + 1) % 4 = 0 then at0_A V c ⟨n + 1, hn⟩ h0
    else if h3 : (n + 1) % 4 = 3 then
      at0_C V c ⟨n + 1, hn⟩ h3 (outsAt0 c n (Nat.lt_of_succ_lt hn)).2.1 (outsAt0 c n (Nat.lt_of_succ_lt hn)).2.2
    else
      at0_B V c ⟨n + 1, hn⟩ h0 h3 (outsAt0 c n (Nat.lt_of_succ_lt hn)).2.1 (outsAt0 c n (Nat.lt_of_succ_lt hn)).2.2
theorem outsAt0_A (c : Dev nD) (t : Fin cfg0.N) (h0 : t.val % 4 = 0) :
    outsAt0 V c t.val t.isLt = at0_A V c t h0 := by
  obtain ⟨n, hn⟩ := t
  cases n with
  | zero => exact rfl
  | succ n => exact (dif_pos h0).trans rfl
theorem outsAt0_B (c : Dev nD) (t : Fin cfg0.N) (h0 : ¬t.val % 4 = 0) (h3 : ¬t.val % 4 = 3) :
    outsAt0 V c t.val t.isLt = at0_B V c t h0 h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h3).trans rfl)
theorem outsAt0_C (c : Dev nD) (t : Fin cfg0.N) (h3 : t.val % 4 = 3) :
    outsAt0 V c t.val t.isLt = at0_C V c t h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd h3 (show ¬(0 % 4 = 3) by decide)
  | succ n =>
    have h3' : (n + 1) % 4 = 3 := h3
    exact (dif_neg (by omega)).trans ((dif_pos h3').trans rfl)

-- The class's invariant with the two accumulators' resources as parameters.
abbrev inv0 (c : Dev nD) (PG PU : sProp 𝕄) : sProp 𝕄 :=
  iprop(iprop(iprop(PG ∗ PU) ∗ Pipeline.scopedRestBut spec0 c [cc0_scratch0, cc0_scratch1]) ∗ (∃ r, prngReg c r))
theorem PhiA0_eq (c : Dev nD) :
    (Pipeline.ΦA spec0 c : sProp 𝕄)
      = inv0 c iprop(∃ d, owns (c : Thread nD τ) accG fullShare d) iprop(∃ d, owns (c : Thread nD τ) accU fullShare d) := by
  unfold Pipeline.ΦA; rw [Pipeline.scopedRest_split_of_list spec0 c [cc0_scratch0, cc0_scratch1] (by decide) (by decide)]
  simp only [accG, accU, owns_whole]; try rfl
def PhiS0 (c : Dev nD) : (n : ℕ) → n ≤ cfg0.N → sProp 𝕄
  | 0, _ => Pipeline.ΦA spec0 c
  | n + 1, hn => inv0 c (owns (c : Thread nD τ) accG fullShare (outsAt0 V c n hn).2.1) (owns (c : Thread nD τ) accU fullShare (outsAt0 V c n hn).2.2)
theorem PhiS0_succ (c : Dev nD) (n : ℕ) (hn : n < cfg0.N) :
    PhiS0 V c (n + 1) hn = inv0 c (owns (c : Thread nD τ) accG fullShare (outsAt0 V c n hn).2.1) (owns (c : Thread nD τ) accU fullShare (outsAt0 V c n hn).2.2) := rfl
theorem PhiS0_pos (c : Dev nD) (n : ℕ) (h : n ≤ cfg0.N) (hz : n ≠ 0) :
    PhiS0 V c n h = inv0 c (owns (c : Thread nD τ) accG fullShare (outsAt0 V c (n - 1) (by omega)).2.1) (owns (c : Thread nD τ) accU fullShare (outsAt0 V c (n - 1) (by omega)).2.2) := by
  cases n with
  | zero => exact absurd rfl hz
  | succ n => rfl

-- At every position the invariant gives the class's back: the accumulators' named contents are forgotten.
theorem PhiS0_weak (c : Dev nD) (n : ℕ) (h : n ≤ cfg0.N) : PhiS0 V c n h ⊢ Pipeline.ΦA spec0 c := by
  cases n with
  | zero => exact Entails.refl _
  | succ n =>
    rw [PhiS0_succ, PhiA0_eq]
    iintro ⟨⟨⟨HG, HU⟩, HR⟩, Hg⟩
    isplitl [HG HU HR]
    · isplitl [HG HU]
      · isplitl [HG]; · iexists _; iexact HG
        iexists _; iexact HU
      iexact HR
    iexact Hg

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0
theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_7 (c : Dev nD) (t : Fin cfg0.N) : (dat0 V c).after 7 t = (outsAt0 V c t.val t.isLt).1 := by dsimp only [dat0]

-- The seven input windows meet the same side conditions by computation, so one proof script serves them all.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ ∀ d, (dat0 V c).before 6 t d = iblk0 V c 6 t := by
  refine ⟨?_, ?_, ?_, ?_, ?_, ?_, ?_⟩ <;>
    exact fun d => ((dat0 V c).before_in_eq_fetched _ rfl (fun _ => rfl) (fun _ _ _ => rfl) (fun _ => rfl) t d).trans rfl

theorem before0_7 (c : Dev nD) (t : Fin cfg0.N) (d) : (dat0 V c).before 7 t d = d := by
  have hout : (cfg0.win 7).isOut = true := rfl
  rw [(dat0 V c).before_idle_run 7 ((cfg0.win 7).fetch_out hout) d (t.val % 4) t (Nat.mod_le _ _)
    (fun j h1 h2 => ⟨idleAt0_7 j (by omega), noFlush0_7 j (by omega)⟩)]
  refine (dat0 V c).before_out_reset 7 hout _ ?_ d
  by_cases hz : t.val - t.val % 4 = 0
  · exact Or.inl hz
  · exact Or.inr ⟨hz, (flush0_7 _).mpr (by show (t.val - t.val % 4 - 1) % 4 = 3; omega)⟩

theorem keep7 (c : Dev nD) (t : Fin cfg0.N) (h3 : ¬t.val % 4 = 3) (L : List (View.Piece (Elt F) S1024x1024 .bf16)) :
    iprop(∃ f, (ms0_7 t).view.loc (c : Thread nD τ) ↦[(ms0_7 t).view.set]{fullShare} (ms0_7 t).view.writes (Elt F) f L) ⊢ (dat0 V c).leavesExact 7 t := by
  rw [Dat.leavesExact_idle (dat0 V c) 7 t (idleAt0_7 t h3) (noFlush0_7 t h3)]
  simp only [before0_7]
  iintro ⟨%f, H⟩
  iexists _; unfold owns; iexists _; isplitr
  swap; · iexact H
  ipureintro; rfl

def bodyPre0 (c : Dev nD) (t : Fin cfg0.N) (Φ : sProp 𝕄) : sProp 𝕄 :=
  iprop(Φ ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) (Φ Q7 : sProp 𝕄) : sProp 𝕄 :=
  iprop(Φ ∗ (dat0 V c).owesAt () t.castSucc ∗ owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ Q7)

-- One proof for the three cases, from the case's run, its two covers and what the output's postcondition follows from.
theorem step0 (c : Dev nD) (t : Fin cfg0.N) {Φ PG PU Q7 : sProp 𝕄} {LO : List (View.Piece (Elt F) S1024x1024 .bf16)} {LG LU : List (View.Piece (Elt F) S1024x1024 .f32)}
    (hΦ : Φ ⊢ inv0 c PG PU)
    (run : ∀ K : PUnit → sProp 𝕄,
      iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ (∃ d, owns (c : Thread nD τ) (ms0_7 t) fullShare d) ∗ PG ∗ PU
          ∗ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ (∃ f, (ms0_7 t).view.loc (c : Thread nD τ) ↦[(ms0_7 t).view.set]{fullShare} (ms0_7 t).view.writes (Elt F) f LO) ∗ (∃ f, accG.view.loc (c : Thread nD τ) ↦[accG.view.set]{fullShare} accG.view.writes (Elt F) f LG) ∗ (∃ f, accU.view.loc (c : Thread nD τ) ↦[accU.view.set]{fullShare} accU.view.writes (Elt F) f LU)) -∗ K ⟨⟩))
        ⊢ wp frame (wpE (defs₀ (F := F)) Variants.none c none) Set.univ (bodyAt0 t) K)
    (hG : ∀ y, ∃ pc ∈ LG, y ∈ pc.1.set) (hU : ∀ y, ∃ pc ∈ LU, y ∈ pc.1.set)
    (h7 : iprop(∃ f, (ms0_7 t).view.loc (c : Thread nD τ) ↦[(ms0_7 t).view.set]{fullShare} (ms0_7 t).view.writes (Elt F) f LO) ⊢ Q7) :
    bodyPre0 V c t Φ ⊢ wp frame (wpE (defs₀ (F := F)) Variants.none c none) Set.univ (bodyAt0 t) (fun _ =>
      bodyPost0 V c t (inv0 c (owns (c : Thread nD τ) accG fullShare (VG0.read (Elt F) (VG0.writes (Elt F) VG0.junk LG))) (owns (c : Thread nD τ) accU fullShare (VU0.read (Elt F) (VU0.writes (Elt F) VU0.junk LU)))) Q7) := by
  unfold bodyPre0 bodyPost0
  obtain ⟨b0, b1, b2, b3, b4, b5, b6⟩ := before0 V c t
  simp only [b0, b1, b2, b3, b4, b5, b6, before0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨⟨⟨HG, HU⟩, HR⟩, Hg⟩ := hΦ $$ HΦ
  iapply (run _)
  iframe H0 H1 H2 H3 H4 H5 H6 HG HU
  isplitl [H7]; · iexists _; iexact H7
  iintro ⟨H0, H1, H2, H3, H4, H5, H6, H7, ⟨%eg, HG⟩, ⟨%eu, HU⟩⟩
  isplitl [HG HU HR Hg]
  · isplitl [HG HU HR]
    · isplitl [HG HU]
      · isplitl [HG]
        · unfold owns; iexists _; isplitr
          swap; · iexact HG
          ipureintro; exact View.read_writes_of_cover _ _ _ _ _ hG
        unfold owns; iexists _; isplitr
        swap; · iexact HU
        ipureintro; exact View.read_writes_of_cover _ _ _ _ _ hU
      iexact HR
    iexact Hg
  iframe Ho H0 H1 H2 H3 H4 H5 H6
  iapply h7; iexact H7

-- The point's residue mod 4 says which case it is in; the first point of a reduction run takes the accumulators at anything.
theorem sound_body0 (c : Dev nD) (t : Fin cfg0.N) :
    bodyPre0 V c t ((dat0 V c).Φ t.castSucc) ⊢ wp frame (wpE (defs₀ (F := F)) Variants.none c none) Set.univ (bodyAt0 t) (fun _ => bodyPost0 V c t ((dat0 V c).Φ t.succ) ((dat0 V c).leavesExact 7 t)) := by
  rw [show (dat0 V c).Φ t.succ = PhiS0 V c (t.val + 1) t.isLt from rfl, PhiS0_succ, PhiS0_castSucc]
  by_cases h0 : t.val % 4 = 0
  · have h3 : ¬t.val % 4 = 3 := by omega
    rw [outsAt0_A V c t h0]; unfold at0_A gate0_A up0_A; dsimp only
    have hw := PhiS0_weak V c t.val (Nat.le_of_lt t.isLt)
    rw [PhiA0_eq] at hw
    apply step0 V c t hw
    · exact fun K => (run0_A c (grid0.coords t) _ _ _ _ _ _ _ _ _ _ _ _ _ _ _ _ _ _ _ _ (rst0_of t h0) (not_fin0_of_rst t h0) _ _ _ _ _ _ _).2.2.2 Set.univ K
    · exact gcover0_A c _ _ _ _ _ _ _ _ _ _ _ _ _ _ _ _ _ _ _ _ _ _ _ _ _ _ _ _ _ _
    · exact ucover0_A c _ _ _ _ _ _ _ _ _ _ _ _ _ _ _ _ _ _ _ _ _ _ _ _ _ _ _ _ _ _
    · exact keep7 V c t h3 _
  · have hz : t.val ≠ 0 := fun h => h0 (by rw [h])
    rw [PhiS0_pos V c _ _ hz]
    by_cases h3 : t.val % 4 = 3
    · rw [show (dat0 V c).leavesExact 7 t = owns (c : Thread nD τ) (ms0_7 t) fullShare ((dat0 V c).after 7 t) from by
        unfold Dat.leavesExact; rw [liveAt0_7 t h3], after0_7, outsAt0_C V c t h3]
      unfold at0_C out0_C gate0_C up0_C; dsimp only
      apply step0 V c t (Entails.refl _)
      · exact fun K => (run0_C c (grid0.coords t) _ _ _ _ _ _ _ _ _ _ _ _ _ _ _ _ _ _ _ _ (not_rst0_of_fin t h3) (fin0_of t h3) _ _ _ _ _ _ _ _ _).2.2.2 Set.univ K
      · exact gcover0_C c _ _ _ _ _ _ _ _ _ _ _ _ _ _ _ _ _ _ _ _ _ _ _ _ _ _ _ _ _ _ _ _
      · exact ucover0_C c _ _ _ _ _ _ _ _ _ _ _ _ _ _ _ _ _ _ _ _ _ _ _ _ _ _ _ _ _ _ _ _
      · unfold owns; iintro ⟨%f, H⟩; iexists _; isplitr
        swap; · iexact H
        ipureintro; exact View.read_writes_of_cover _ _ _ _ _ (ocover0_C c _ _ _ _ _ _ _ _ _ _ _ _ _ _ _ _ _ _ _ _ _ _ _ _ _ _ _ _ _ _ _ _)
    · rw [outsAt0_B V c t h0 h3]; unfold at0_B gate0_B up0_B; dsimp only
      apply step0 V c t (Entails.refl _)
      · exact fun K => (run0_B c (grid0.coords t) _ _ _ _ _ _ _ _ _ _ _ _ _ _ _ _ _ _ _ _ (not_rst0_of t h0) (not_fin0_of t h3) _ _ _ _ _ _ _ _ _).2.2.2 Set.univ K
      · exact gcover0_B c _ _ _ _ _ _ _ _ _ _ _ _ _ _ _ _ _ _ _ _ _ _ _ _ _ _ _ _ _ _ _ _
      · exact ucover0_B c _ _ _ _ _ _ _ _ _ _ _ _ _ _ _ _ _ _ _ _ _ _ _ _ _ _ _ _ _ _ _ _
      · exact keep7 V c t h3 _

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Entails.refl _

theorem Phi_out0 (c : Dev nD) (t : Fin (cfg0.N + 1)) : (dat0 V c).Φ t ⊢ Pipeline.ΦA spec0 c :=
  PhiS0_weak V c t.val (Nat.le_of_lt_succ t.isLt)

theorem hout0 (c : Dev nD) : (dat0 V c).Φ (Fin.last cfg0.N) ⊢ Pipeline.ΦA spec0 c := Phi_out0 V c _

end Region0

end Cert.Kernel.Fr

end
-- ==== Proof.K.Kit1.lean ====
import proofs.«429270_j84954453115513_3_alg».proof.Proof.Gen.Kernel.Launch
import proofs.«429270_j84954453115513_3_alg».proof.Proof.Gen.Kernel.Skeleton
import proofs.«429270_j84954453115513_3_alg».proof.Proof.Gen.Kernel.Points
import proofs.«429270_j84954453115513_3_alg».proof.Proof.K.Kit0
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev rst1 (i : grid1.Coords) : Prop := (Scalar.cmpi .ne (Scalar.extui (Scalar.cmpi .eq (BitVec.ofNat 32 (i 2).val) 0#32)) 0#32) = 1#1
theorem rst1_iff : ∀ t : Fin cfg1.N, rst1 (grid1.coords t) ↔ t.val % 11 = 0 :=
  (by decide +kernel : ∀ t : Fin grid1.N, rst1 (grid1.coords t) ↔ t.val % 11 = 0)

abbrev fin1 (i : grid1.Coords) : Prop := k1_cond2 i = 1#1
theorem fin1_iff : ∀ t : Fin cfg1.N, fin1 (grid1.coords t) ↔ t.val % 11 = 10 :=
  (by decide +kernel : ∀ t : Fin grid1.N, fin1 (grid1.coords t) ↔ t.val % 11 = 10)

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)

abbrev acc1 : Memref sig .tc .vmem S1024x1024 .f32 := Memref.whole cc1_scratch0

abbrev VA1 : View sig .tc .vmem S1024x1024 .f32 := acc1.view
abbrev VO1 : View sig .tc .vmem S1024x1024 .f32 := (Memref.whole cc1_stg4_0 : Memref sig .tc .vmem S1024x1024 .f32).view

abbrev RunSpec1 (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole)
    (x0 : Vec F S1024x1024 .bf16) (x1 : Vec F S1024x128 .i32) (x2 : Vec F S8x1024 .f32) (x3 : Vec F S8x128 .i32) (accPre : sProp 𝕄) : Type :=
  Σ' (LO : List (View.Piece (Elt F) S1024x1024 .f32)), { LA : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ accPre
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA)) -∗ K ⟨⟩))
          ⊢ wp frame (wpE (defs₀ (F := F)) Variants.none c none) E (cc1__down_kernel i arg3 harg3 arg4 harg4 arg5 harg5 arg6 harg6 arg7 harg7 arg8 harg8) K }

end Cert.Kernel.Fr

end
-- ==== Proof.K.Run1A.lean ====
import proofs.«429270_j84954453115513_3_alg».proof.Proof.K.Kit1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def run1_A (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole) (hc0 : rst1 i) (hc1 : ¬fin1 i)
    (x0 : Vec F S1024x1024 .bf16) (x1 : Vec F S1024x128 .i32) (x2 : Vec F S8x1024 .f32) (x3 : Vec F S8x128 .i32) :
    RunSpec1 c i arg3 harg3 arg4 harg4 arg5 harg5 arg6 harg6 arg7 harg7 arg8 harg8 x0 x1 x2 x3 iprop(∃ d, owns (c : Thread nD τ) arg8 fullShare d) := by
  refine ⟨[], ?_, fun E K => ?run⟩
  case run =>
    simp only [cc1__down_kernel_eq_skeleton]; unfold cc1__down_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iexists _; iexact H4
    iexists _; iexact HS0

end Cert.Kernel.Fr

end
-- ==== Proof.K.Run1B.lean ====
import proofs.«429270_j84954453115513_3_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def run1_B (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole) (hc0 : ¬rst1 i) (hc1 : ¬fin1 i)
    (x0 : Vec F S1024x1024 .bf16) (x1 : Vec F S1024x128 .i32) (x2 : Vec F S8x1024 .f32) (x3 : Vec F S8x128 .i32) (xs0 : Vec F S1024x1024 .f32) :
    RunSpec1 c i arg3 harg3 arg4 harg4 arg5 harg5 arg6 harg6 arg7 harg7 arg8 harg8 x0 x1 x2 x3 (owns (c : Thread nD τ) arg8 fullShare xs0) := by
  refine ⟨[], ?_, fun E K => ?run⟩
  case run =>
    simp only [cc1__down_kernel_eq_skeleton]; unfold cc1__down_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iexists _; iexact H4
    iexists _; iexact HS0

end Cert.Kernel.Fr

end
-- ==== Proof.K.Run1C.lean ====
import proofs.«429270_j84954453115513_3_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def run1_C (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole) (hc0 : ¬rst1 i) (hc1 : fin1 i)
    (x0 : Vec F S1024x1024 .bf16) (x1 : Vec F S1024x128 .i32) (x2 : Vec F S8x1024 .f32) (x3 : Vec F S8x128 .i32) (xs0 : Vec F S1024x1024 .f32) :
    RunSpec1 c i arg3 harg3 arg4 harg4 arg5 harg5 arg6 harg6 arg7 harg7 arg8 harg8 x0 x1 x2 x3 (owns (c : Thread nD τ) arg8 fullShare xs0) := by
  refine ⟨?_, ?_, fun E K => ?run⟩
  case run =>
    simp only [cc1__down_kernel_eq_skeleton]; unfold cc1__down_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iexists _; iexact H4
    iexists _; iexact HS0

end Cert.Kernel.Fr

end
-- ==== Proof.K.Pieces1.lean ====
import proofs.«429270_j84954453115513_3_alg».proof.Proof.K.Run1C

noncomputable section

namespace Cert.Kernel.Fr

open Cert.Kernel Cert.Kernel.Gen
open Idealize.ShloMosaic Idealize.ShloMosaic.TcCoe

variable {F : FTy → Type} [FloatOps F]

variable (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole)

section
variable (hc0 : rst1 i) (hc1 : ¬fin1 i) (x0 : Vec F S1024x1024 .bf16) (x1 : Vec F S1024x128 .i32) (x2 : Vec F S8x1024 .f32) (x3 : Vec F S8x128 .i32)

-- Every store of the body is of the whole block, so a case's pieces cover the buffer.
theorem cover_accA (y : S1024x1024.Idx) : ∃ pc ∈ (run1_A c i arg3 harg3 arg4 harg4 arg5 harg5 arg6 harg6 arg7 harg7 arg8 harg8 hc0 hc1 x0 x1 x2 x3).2.1, y ∈ pc.1.set :=
  View.cover_of_tiledL _ S1024x1024.size (by sl_kernel_rfl) y

def accA : Vec F S1024x1024 .f32 :=
  VA1.read (Elt F) (VA1.writes (Elt F) VA1.junk (run1_A c i arg3 harg3 arg4 harg4 arg5 harg5 arg6 harg6 arg7 harg7 arg8 harg8 hc0 hc1 x0 x1 x2 x3).2.1)

end

section
variable (hc0 : ¬rst1 i) (hc1 : ¬fin1 i) (x0 : Vec F S1024x1024 .bf16) (x1 : Vec F S1024x128 .i32) (x2 : Vec F S8x1024 .f32) (x3 : Vec F S8x128 .i32) (xs0 : Vec F S1024x1024 .f32)

theorem cover_accB (y : S1024x1024.Idx) : ∃ pc ∈ (run1_B c i arg3 harg3 arg4 harg4 arg5 harg5 arg6 harg6 arg7 harg7 arg8 harg8 hc0 hc1 x0 x1 x2 x3 xs0).2.1, y ∈ pc.1.set :=
  View.cover_of_tiledL _ S1024x1024.size (by sl_kernel_rfl) y

def accB : Vec F S1024x1024 .f32 :=
  VA1.read (Elt F) (VA1.writes (Elt F) VA1.junk (run1_B c i arg3 harg3 arg4 harg4 arg5 harg5 arg6 harg6 arg7 harg7 arg8 harg8 hc0 hc1 x0 x1 x2 x3 xs0).2.1)

end

section
variable (hc0 : ¬rst1 i) (hc1 : fin1 i) (x0 : Vec F S1024x1024 .bf16) (x1 : Vec F S1024x128 .i32) (x2 : Vec F S8x1024 .f32) (x3 : Vec F S8x128 .i32) (xs0 : Vec F S1024x1024 .f32)

theorem cover_accC (y : S1024x1024.Idx) : ∃ pc ∈ (run1_C c i arg3 harg3 arg4 harg4 arg5 harg5 arg6 harg6 arg7 harg7 arg8 harg8 hc0 hc1 x0 x1 x2 x3 xs0).2.1, y ∈ pc.1.set :=
  View.cover_of_tiledL _ S1024x1024.size (by sl_kernel_rfl) y

def accC : Vec F S1024x1024 .f32 :=
  VA1.read (Elt F) (VA1.writes (Elt F) VA1.junk (run1_C c i arg3 harg3 arg4 harg4 arg5 harg5 arg6 harg6 arg7 harg7 arg8 harg8 hc0 hc1 x0 x1 x2 x3 xs0).2.1)

theorem cover_outC (y : S1024x1024.Idx) : ∃ pc ∈ (run1_C c i arg3 harg3 arg4 harg4 arg5 harg5 arg6 harg6 arg7 harg7 arg8 harg8 hc0 hc1 x0 x1 x2 x3 xs0).1, y ∈ pc.1.set :=
  View.cover_of_tiledL _ S1024x1024.size (by sl_kernel_rfl) y

def outC : Vec F S1024x1024 .f32 :=
  VO1.read (Elt F) (VO1.writes (Elt F) VO1.junk (run1_C c i arg3 harg3 arg4 harg4 arg5 harg5 arg6 harg6 arg7 harg7 arg8 harg8 hc0 hc1 x0 x1 x2 x3 xs0).1)

end

-- Cases A and B store nothing into the output block; nothing consults this value.
def outIdle1 : Vec F S1024x1024 .f32 := VO1.read (Elt F) VO1.junk

end Cert.Kernel.Fr

end
-- ==== Proof.K.Frame1.lean ====
import proofs.«429270_j84954453115513_3_alg».proof.Proof.K.Pieces1
import Idealize.ShloMosaic.Lib.Pipeline.Kit

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idleAt1_4 (t : Fin cfg1.N) (h : ¬fin1 (grid1.coords t)) : cfg1.idle 4 (grid1.coords t) = true :=
  congrArg (!·) (beq_eq_false_iff_ne.mpr h)
theorem liveAt1_4 (t : Fin cfg1.N) (h : fin1 (grid1.coords t)) : cfg1.idle 4 (grid1.coords t) = false :=
  congrArg (!·) (beq_iff_eq.mpr h)
theorem noFlush1_4 (t : Fin cfg1.N) (h : ¬fin1 (grid1.coords t)) : (cfg1.win 4).flush t = false :=
  Bool.eq_false_iff.mpr fun hf => h ((fin1_iff t).mpr ((flush1_4 t).mp hf))

theorem before1_4 {c : Dev nD} (dat : Dat τ (Elt F) Unit ℕ (Pipeline.UD sig nD τ) ℕ cfg1 c) (t : Fin cfg1.N) (d) :
    dat.before 4 t d = d := by
  induction hn : t.val using Nat.strong_induction_on generalizing t with
  | _ n ih =>
    subst hn
    by_cases ht : t.val = 0
    · exact dat.before_out_reset 4 rfl t (.inl ht) d
    · by_cases hfl : (cfg1.win 4).flush ⟨t.val - 1, Nat.lt_of_le_of_lt (Nat.sub_le _ _) t.isLt⟩ = true
      · exact dat.before_out_reset 4 rfl t (.inr ⟨ht, hfl⟩) d
      · rw [dat.before_of_pos 4 t ht ((cfg1.win 4).fetch_out rfl t), if_neg hfl]
        unfold Dat.left
        rw [idleAt1_4 _ fun h => hfl ((flush1_4 _).mpr ((fin1_iff _).mp h))]
        exact ih (t.val - 1) (by omega) ⟨t.val - 1, Nat.lt_of_le_of_lt (Nat.sub_le _ _) t.isLt⟩ rfl

def rest1 (c : Dev nD) : sProp 𝕄 :=
  Pipeline.scopedRestBut (Ix := Unit) (Name := ℕ) (U := Pipeline.UD sig nD τ) (Lvl := ℕ) (Val := Elt F) spec1 c [cc1_scratch0]

theorem PhiA1_eq (c : Dev nD) :
    (Pipeline.ΦA spec1 c : sProp 𝕄)
      = iprop(((∃ d, owns (c : Thread nD τ) acc1 fullShare d) ∗ rest1 (F := F) c) ∗ (∃ r, prngReg c r)) := by
  unfold Pipeline.ΦA rest1
  rw [Pipeline.scopedRest_split_of_list spec1 c [cc1_scratch0] (by decide) (by decide)]
  simp only [acc1, owns_whole] <;> rfl

-- One point: the accumulator starts afresh where the reduction coordinate is 0 and is copied out where it is 10.
def stepAt1 (c : Dev nD) (t : Fin cfg1.N) (prev : Vec F S1024x1024 .f32) : Vec F S1024x1024 .f32 × Vec F S1024x1024 .f32 :=
  if h0 : t.val % 11 = 0 then
    (outIdle1, accA c (grid1.coords t) (ms1_0 t) (hs1_0 t) (ms1_1 t) (hs1_1 t) (ms1_2 t) (hs1_2 t) (ms1_3 t) (hs1_3 t) (ms1_4 t) (hs1_4 t) acc1 (Memref.isWhole_whole _) ((rst1_iff t).mpr h0) (fun h => by have := (fin1_iff t).mp h; omega) (iblk1 V c 0 t) (iblk1 V c 1 t) (iblk1 V c 2 t) (iblk1 V c 3 t))
  else if h1 : t.val % 11 = 10 then
    (outC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) prev,
      accC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) prev)
  else
    (outIdle1, accB c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) (fun h => h1 ((fin1_iff t).mp h)) (iblk1 V c 0 t) (iblk1 V c 1 t) (iblk1 V c 2 t) (iblk1 V c 3 t) prev)

def outsAt1 (c : Dev nD) : (n : ℕ) → n < cfg1.N → Vec F S1024x1024 .f32 × Vec F S1024x1024 .f32
  | 0, hn => stepAt1 V c ⟨0, hn⟩ (VA1.read (Elt F) VA1.junk)
  | n + 1, hn => stepAt1 V c ⟨n + 1, hn⟩ (outsAt1 c n (Nat.lt_of_succ_lt hn)).2

theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨_ | n, hn⟩ := t
  exacts [absurd rfl hz, rfl]

theorem outsAt1_A (c : Dev nD) (t : Fin cfg1.N) (h0 : t.val % 11 = 0) (h1 : ¬t.val % 11 = 10) :
    outsAt1 V c t.val t.isLt = (outIdle1, accA c (grid1.coords t) (ms1_0 t) (hs1_0 t) (ms1_1 t) (hs1_1 t) (ms1_2 t) (hs1_2 t) (ms1_3 t) (hs1_3 t) (ms1_4 t) (hs1_4 t) acc1 (Memref.isWhole_whole _) ((rst1_iff t).mpr h0) (fun h => h1 ((fin1_iff t).mp h)) (iblk1 V c 0 t) (iblk1 V c 1 t) (iblk1 V c 2 t) (iblk1 V c 3 t)) := by
  obtain ⟨_ | n, hn⟩ := t <;> (unfold outsAt1 stepAt1; rw [dif_pos h0])

theorem outsAt1_B (c : Dev nD) (t : Fin cfg1.N) (h0 : ¬t.val % 11 = 0) (h1 : ¬t.val % 11 = 10) :
    outsAt1 V c t.val t.isLt = (outIdle1, accB c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) (fun h => h1 ((fin1_iff t).mp h)) (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t fun hz => h0 (by rw [hz])]; unfold stepAt1; rw [dif_neg h0, dif_neg h1]

theorem outsAt1_C (c : Dev nD) (t : Fin cfg1.N) (h0 : ¬t.val % 11 = 0) (h1 : t.val % 11 = 10) :
    outsAt1 V c t.val t.isLt = (outC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) (outsAt1 V c (t.val - 1) (Nat.lt_of_le_of_lt (Nat.sub_le _ _) t.isLt)).2,
      accC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t fun hz => h0 (by rw [hz])]; unfold stepAt1; rw [dif_neg h0, dif_pos h1]

-- The invariant before point n carries the accumulator at what the point before left in it.
def PhiS1 (c : Dev nD) : (n : ℕ) → n ≤ cfg1.N → sProp 𝕄
  | 0, _ => Pipeline.ΦA spec1 c
  | n + 1, hn => iprop((owns (c : Thread nD τ) acc1 fullShare (outsAt1 V c n hn).2 ∗ rest1 (F := F) c) ∗ (∃ r, prngReg c r))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = (outsAt1 V c t.val t.isLt).1 := rfl

theorem Phi_pos1 (c : Dev nD) (t : Fin cfg1.N) (hz : t.val ≠ 0) :
    (dat1 V c).Φ t.castSucc = iprop((owns (c : Thread nD τ) acc1 fullShare (outsAt1 V c (t.val - 1) (Nat.lt_of_le_of_lt (Nat.sub_le _ _) t.isLt)).2 ∗ rest1 (F := F) c) ∗ (∃ r, prngReg c r)) := by
  obtain ⟨_ | n, hn⟩ := t
  exacts [absurd rfl hz, rfl]

-- Forgetting the accumulator's contents gives the entry invariant back.
theorem Phi_weak1 (c : Dev nD) (t : Fin (cfg1.N + 1)) :
    (dat1 V c).Φ t ⊢ iprop(((∃ d, owns (c : Thread nD τ) acc1 fullShare d) ∗ rest1 (F := F) c) ∗ (∃ r, prngReg c r)) := by
  obtain ⟨_ | n, hn⟩ := t
  · rw [← PhiA1_eq c] <;> exact Entails.refl _
  · show iprop((owns (c : Thread nD τ) acc1 fullShare (outsAt1 V c n _).2 ∗ rest1 (F := F) c) ∗ (∃ r, prngReg c r)) ⊢ _
    iintro ⟨⟨HS, HR⟩, Hg⟩
    iframe HR Hg
    iexists _; iexact HS

theorem before1_0 (c : Dev nD) (t : Fin cfg1.N) (d) : (dat1 V c).before 0 t d = iblk1 V c 0 t := ((dat1 V c).before_fetched 0 t (fetch1_0 t) d).trans rfl
theorem before1_1 (c : Dev nD) (t : Fin cfg1.N) (d) : (dat1 V c).before 1 t d = iblk1 V c 1 t := ((dat1 V c).before_fetched 1 t (fetch1_1 t) d).trans rfl
theorem before1_2 (c : Dev nD) (t : Fin cfg1.N) (d) : (dat1 V c).before 2 t d = iblk1 V c 2 t := ((dat1 V c).before_fetched 2 t (fetch1_2 t) d).trans rfl
theorem before1_3 (c : Dev nD) (t : Fin cfg1.N) (d) : (dat1 V c).before 3 t d = iblk1 V c 3 t := ((dat1 V c).before_fetched 3 t (fetch1_3 t) d).trans rfl

theorem leaves1_0 (c : Dev nD) (t : Fin cfg1.N) : (dat1 V c).leavesExact 0 t = owns (c : Thread nD τ) (ms1_0 t) fullShare (iblk1 V c 0 t) := rfl
theorem leaves1_1 (c : Dev nD) (t : Fin cfg1.N) : (dat1 V c).leavesExact 1 t = owns (c : Thread nD τ) (ms1_1 t) fullShare (iblk1 V c 1 t) := rfl
theorem leaves1_2 (c : Dev nD) (t : Fin cfg1.N) : (dat1 V c).leavesExact 2 t = owns (c : Thread nD τ) (ms1_2 t) fullShare (iblk1 V c 2 t) := rfl
theorem leaves1_3 (c : Dev nD) (t : Fin cfg1.N) : (dat1 V c).leavesExact 3 t = owns (c : Thread nD τ) (ms1_3 t) fullShare (iblk1 V c 3 t) := rfl

set_option maxHeartbeats 1000000 in
-- The point's number mod 11 says which case's run applies; its pieces cover what it stores.
theorem sound_body1 (c : Dev nD) (t : Fin cfg1.N) :
    iprop((dat1 V c).Φ t.castSucc ∗ (dat1 V c).owesAt () t.castSucc ∗ (∃ d, owns (c : Thread nD τ) (ms1_0 t) fullShare ((dat1 V c).before 0 t d)) ∗ (∃ d, owns (c : Thread nD τ) (ms1_1 t) fullShare ((dat1 V c).before 1 t d)) ∗ (∃ d, owns (c : Thread nD τ) (ms1_2 t) fullShare ((dat1 V c).before 2 t d)) ∗ (∃ d, owns (c : Thread nD τ) (ms1_3 t) fullShare ((dat1 V c).before 3 t d)) ∗ (∃ d, owns (c : Thread nD τ) (ms1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t)) := by
  simp only [before1_0, before1_1, before1_2, before1_3, before1_4]
  rw [show (dat1 V c).owesAt () t.succ = (dat1 V c).owesAt () t.castSucc from rfl,
    show (dat1 V c).Φ t.succ = iprop((owns (c : Thread nD τ) acc1 fullShare (outsAt1 V c t.val t.isLt).2 ∗ rest1 (F := F) c) ∗ (∃ r, prngReg c r)) from rfl,
    leaves1_0, leaves1_1, leaves1_2, leaves1_3]
  by_cases h0 : t.val % 11 = 0
  · have h1 : ¬t.val % 11 = 10 := by omega
    have hfin : ¬fin1 (grid1.coords t) := fun h => h1 ((fin1_iff t).mp h)
    rw [Dat.leavesExact_idle (dat1 V c) 4 t (idleAt1_4 t hfin) (noFlush1_4 t hfin)]
    simp only [before1_4]
    rw [outsAt1_A V c t h0 h1]
    unfold accA; (try dsimp only)
    refine (sep_mono_left (Phi_weak1 V c t.castSucc)).trans ?_
    iintro ⟨⟨⟨HS0, HR⟩, Hg⟩, Ho, ⟨%d0, H0⟩, ⟨%d1, H1⟩, ⟨%d2, H2⟩, ⟨%d3, H3⟩, H4⟩
    iapply ((run1_A c (grid1.coords t) _ _ _ _ _ _ _ _ _ _ _ _ ((rst1_iff t).mpr h0) hfin (iblk1 V c 0 t) (iblk1 V c 1 t) (iblk1 V c 2 t) (iblk1 V c 3 t)).2.2 Set.univ _)
    iframe H0 H1 H2 H3 H4 HS0
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (fun _ => cover_accA ..)
    iexists _; unfold owns; iexists _; isplitr
    swap; · iexact H4
    ipureintro; rfl
  · have hz : t.val ≠ 0 := fun hz => h0 (by rw [hz])
    have hrst : ¬rst1 (grid1.coords t) := fun h => h0 ((rst1_iff t).mp h)
    by_cases h1 : t.val % 11 = 10
    · have hfin : fin1 (grid1.coords t) := (fin1_iff t).mpr h1
      rw [show (dat1 V c).leavesExact 4 t = owns (c : Thread nD τ) (ms1_4 t) fullShare ((dat1 V c).after 4 t) from by
        unfold Dat.leavesExact; rw [liveAt1_4 t hfin], after1_4]
      rw [outsAt1_C V c t h0 h1]
      unfold outC accC; (try dsimp only)
      rw [Phi_pos1 V c t hz]
      iintro ⟨⟨⟨HS0, HR⟩, Hg⟩, Ho, ⟨%d0, H0⟩, ⟨%d1, H1⟩, ⟨%d2, H2⟩, ⟨%d3, H3⟩, H4⟩
      iapply ((run1_C c (grid1.coords t) _ _ _ _ _ _ _ _ _ _ _ _ hrst hfin (iblk1 V c 0 t) (iblk1 V c 1 t) (iblk1 V c 2 t) (iblk1 V c 3 t) _).2.2 Set.univ _)
      iframe H0 H1 H2 H3 H4 HS0
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact View.read_writes_of_cover _ _ _ _ _ (fun _ => cover_accC ..)
      unfold owns; iexists _; isplitr
      swap; · iexact H4
      ipureintro; exact View.read_writes_of_cover _ _ _ _ _ (fun _ => cover_outC ..)
    · have hfin : ¬fin1 (grid1.coords t) := fun h => h1 ((fin1_iff t).mp h)
      rw [Dat.leavesExact_idle (dat1 V c) 4 t (idleAt1_4 t hfin) (noFlush1_4 t hfin)]
      simp only [before1_4]
      rw [outsAt1_B V c t h0 h1]
      unfold accB; (try dsimp only)
      rw [Phi_pos1 V c t hz]
      iintro ⟨⟨⟨HS0, HR⟩, Hg⟩, Ho, ⟨%d0, H0⟩, ⟨%d1, H1⟩, ⟨%d2, H2⟩, ⟨%d3, H3⟩, H4⟩
      iapply ((run1_B c (grid1.coords t) _ _ _ _ _ _ _ _ _ _ _ _ hrst hfin (iblk1 V c 0 t) (iblk1 V c 1 t) (iblk1 V c 2 t) (iblk1 V c 3 t) _).2.2 Set.univ _)
      iframe H0 H1 H2 H3 H4 HS0
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact View.read_writes_of_cover _ _ _ _ _ (fun _ => cover_accB ..)
      iexists _; unfold owns; iexists _; isplitr
      swap; · iexact H4
      ipureintro; rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

theorem hout1 (c : Dev nD) : (dat1 V c).Φ (Fin.last cfg1.N) ⊢ Pipeline.ΦA spec1 c := by
  rw [PhiA1_eq]; exact Phi_weak1 V c _

end Region1

end Cert.Kernel.Fr

end
-- ==== Proof.K.Regs.lean ====
import proofs.«429270_j84954453115513_3_alg».proof.Proof.Gen.Kernel.Regions
import proofs.«429270_j84954453115513_3_alg».proof.Proof.K.Frame0
import proofs.«429270_j84954453115513_3_alg».proof.Proof.K.Frame1
import Idealize.ShloMosaic.Lib.Pipeline.RegionsLoop
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev Vin0 (c : Dev nD) (b : Ref sig .tc) : Buf (Elt F) ((c : Thread nD τ).loc b) := V12 m c b
def Wout0 (c : Dev nD) : Valuation τ sig (Elt F) :=
  Pipeline.withArrays spec0 c (V12 m c) fun w => (dat0 (Vin0 m) c).arrAt w cfg0.N
def outsA : Outs (F := F) := fun _ r c => Wout0 m c r
abbrev Vin1 (c : Dev nD) (b : Ref sig .tc) : Buf (Elt F) ((c : Thread nD τ).loc b) := V19 m (outsA m) c b
def Wout1 (c : Dev nD) : Valuation τ sig (Elt F) :=
  Pipeline.withArrays spec1 c (V19 m (outsA m) c) fun w => (dat1 (Vin1 m) c).arrAt w cfg1.N
def outs : Outs (F := F) := fun J r c => if J = 13 then Wout0 m c r else Wout1 m c r

theorem out0 (c : Dev nD) : outs m 13 main_v13 c = (dat0 (Vin0 m) c).arrAt 7 cfg0.N :=
  Pipeline.withArrays_arr spec0 launch0.win.arr_inj c (V12 m c) (fun w => (dat0 (Vin0 m) c).arrAt w cfg0.N) 7
theorem out1 (c : Dev nD) : outs m 20 main_v23 c = (dat1 (Vin1 m) c).arrAt 4 cfg1.N :=
  Pipeline.withArrays_arr spec1 launch1.win.arr_inj c (V19 m (outsA m) c) (fun w => (dat1 (Vin1 m) c).arrAt w cfg1.N) 4

def pdats : (p : Fin 2) → (c : Dev nD) → Dat τ (Elt F) Unit ℕ (Pipeline.UD sig nD τ) ℕ (cfgs p) c
  | ⟨0, _⟩ => fun c => dat0 (Vin0 m) c
  | ⟨1, _⟩ => fun c => dat1 (Vin1 m) c
theorem pdats_plain : ∀ (p : Fin 2) (c : Dev nD), (∀ w, (pdats m p c).q w = fullShare)
    ∧ (∀ t, (pdats m p c).owed t = 0) ∧ ∀ t, (pdats m p c).recorded t = Set.univ
  | ⟨0, _⟩, _ => ⟨fun _ => rfl, fun _ => rfl, fun _ => rfl⟩
  | ⟨1, _⟩, _ => ⟨fun _ => rfl, fun _ => rfl, fun _ => rfl⟩
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A region takes the valuation Vi to Vi updated at the array of its one output window o. -/
def reg (p : Fin 2) (lf : Pipeline.LaunchFacts (nD := nD) (τ := τ) cfgs p) (o : Fin (cfgs p).W)
    (hio : ∀ w, w ≠ o → ((cfgs p).win w).isOut = false) (Vi : (c : Dev nD) → Valuation τ sig (Elt F))
    (X : (c : Dev nD) → Buf (Elt F) ((c : Thread nD τ).loc (Pipeline.arrRef (cfgs p).spec o)))
    (hX : ∀ c, X c = (pdats m p c).arrAt o (cfgs p).N)
    (hb : ∀ c, BodyObligation (pdats m p c) (defs₀ (F := F)) Variants.none () Set.univ)
    (hA : ∀ c w, (pdats m p c).A w = Vi c (Pipeline.arrRef (cfgs p).spec w))
    (hi : ∀ c, Pipeline.ΦA (cfgs p).spec c ⊢ (pdats m p c).Φ 0)
    (ho : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.1
  pre c := iprop(StableHlo.held (c : Thread nD τ) (Pipeline.ucRefs τ sig) (Vi c) ∗ R c)
  post c := iprop(StableHlo.held (c : Thread nD τ) (Pipeline.ucRefs τ sig)
    (Function.update (Vi c) (Proc.devRef .tc (Pipeline.arrRef (cfgs p).spec o)) (X c)) ∗ R c)
  X c := iprop(∃ r, prngReg c r)
  Y c := iprop(∃ r, prngReg c r)
  Z c := Pipeline.unscopedRest (cfgs p).spec c fun b => Vi c b
  hentry c := by
    obtain ⟨hq, hw, hrec⟩ := pdats_plain m p c
    have hsplit := Pipeline.arrays_of_unscopedBufs (p := p) (pcfgs (F := F)) adm (pdats m) lf.win lf.arr_whole c
      ((pdats m p c).share_full hq) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [hw, hrec]
      icases HO with ⟨%W, HO⟩; iexists W; isplitr; · ipureintro; exact fun _ _ => Or.inl trivial
      iexact HO
    isplitl [Hp]; · iexact Hp
    iexact Hrest
  hin c := by
    have h := hi c
    unfold Pipeline.ΦA at h
    iintro ⟨Hp, -, Hr⟩
    iapply h
    isplitl [Hr]; · iexact Hr
    iexact Hp
  hout c := by
    rw [Pipeline.ownSems0_none]
    have h := ho c
    unfold Pipeline.ΦA at h
    iintro HΦ
    ihave H := h $$ HΦ
    icases H with ⟨Hr, Hp⟩
    isplitl [Hp]; · iexact Hp
    isplitr; · iempintro
    iexact Hr
  hexit c := by
    obtain ⟨hq, hw, -⟩ := pdats_plain m p c
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full hq) (fun b => Vi c b)
      (fun b => Function.update (Vi c) (Proc.devRef .tc (Pipeline.arrRef (cfgs p).spec o)) (X c) b) ((pdats m p c).arrAt · (cfgs p).N)
      (fun w => by
        by_cases h : w = o
        · subst h; exact ((Function.update_self (Proc.devRef (τ := τ) .tc (Pipeline.arrRef (cfgs p).spec w)) (X c) (Vi c)).trans (hX c)).symm
        · rw [Function.update_of_ne fun e => h (lf.win.arr_inj (Proc.devRef_injective _ e))]
          exact ((pdats m p c).arrAt_in w (hio w h) _).trans (hA c w))
      (fun b hb => Function.update_of_ne (fun e => hb (Finset.mem_image.mpr ⟨o, Finset.mem_univ _, (Proc.devRef_injective _ e).symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hw]
    icases HO with ⟨%W, -, HO⟩; iexists W; iexact HO

abbrev u₀ : Pipeline.UD sig nD τ := (initOf (Pipeline.cells cfgs cellOf_inj) (Pipeline.launchToks cfgs cellOf_inj), 1)

theorem hu₀ : (ownU (u₀ : Pipeline.UD sig nD τ) : sProp 𝕄)
    ⊢ |={Set.univ}=> iprop(BI.own (embL (u₀ : Pipeline.UD sig nD τ).1) ∗ bigSep Finset.univ fun _ : Dev nD => (BI.emp : sProp 𝕄)) := by
  rw [BI.bigSep_emp_const]
  iintro Hu
  ihave H := (ownU_pair _ _) $$ Hu
  icases H with ⟨HP, -⟩
  imodintro
  isplitl [HP]; · iexact HP
  iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run of @main ends with every buffer at the last valuation of the fold through its items, which has every argument as launched. -/
theorem run : θ_run defs (onTc (τ := τ) (main (F := F))) ⟨m, fun _ => 0, ρ⟩ (fun r => ∀ c : Dev nD,
      r.2.mem ((c.tc : Thread nD τ).loc main_v26) = V21 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj embL defs₀ 𝒱₀ L lv m ρ main
    (segs m (outs m) 𝒱₀ L lv (fun _ c => R c) () (pdats m)
      (reg m 0 launch0 7 (by decide) (V12 m) (fun c => outs m 13 main_v13 c) (out0 m) (body_obligation0 (Vin0 m)) (A_eq0 (Vin0 m)) (hin0 (Vin0 m)) (hout0 (Vin0 m)))
      (reg m 1 launch1 4 (by decide) (V19 m (outs m)) (fun c => outs m 20 main_v23 c) (out1 m) (body_obligation1 (Vin1 m)) (A_eq1 (Vin1 m)) (hin1 (Vin1 m)) (hout1 (Vin1 m))))
    (fun c Q => by rewrite [main_chain c, Pipeline.Seg.run_eq_chain]; exact .rfl)
    (fun c => by simp only [segs, Pipeline.Seg.pipes_host, Pipeline.Seg.pipes_region, Pipeline.Seg.pipes_nil]; decide) 0 (fun _ _ => rfl) (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl sep_elim_right⟩)
    (hinit := ?_) (QY := fun c s => ∀ b ∈ Pipeline.ucRefs τ sig, s.mem (((c : Thread nD τ)).1, b) = V21 m (outs m) c b)
    (hfin := fun c s' => ?_)
    (hQ := fun _ h c => have rd b hb := h c _ (mem_uc b hb)
      ⟨rd main_v26 (by decide), (rd main_arg0 (by decide)).trans (V21_main_arg0 m _ c), (rd main_arg1 (by decide)).trans (V21_main_arg1 m _ c), (rd main_arg2 (by decide)).trans (V21_main_arg2 m _ c),
      (rd main_arg3 (by decide)).trans (V21_main_arg3 m _ c), (rd main_arg4 (by decide)).trans (V21_main_arg4 m _ c), (rd main_arg5 (by decide)).trans (V21_main_arg5 m _ c),
      (rd main_arg6 (by decide)).trans (V21_main_arg6 m _ c), (rd main_arg7 (by decide)).trans (V21_main_arg7 m _ c), (rd main_arg8 (by decide)).trans (V21_main_arg8 m _ c),
      (rd main_arg9 (by decide)).trans (V21_main_arg9 m _ c)⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V21 m (outs m) c) s')
    isplitl [Hh] <;> iassumption

end Cert.Kernel.Fr

end
-- ==== Proof.KI.Kit0.lean ====
import proofs.«429270_j84954453115513_3_alg».proof.Proof.Gen.KernelIdeal.Launch
import proofs.«429270_j84954453115513_3_alg».proof.Proof.Gen.KernelIdeal.Skeleton
import proofs.«429270_j84954453115513_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem owns_of_unread {sp : Space} {sh : Shape} {e : EltTy} (c : Dev nD) (m : Memref sig .tc sp sh e) (h : m.IsWhole)
    (x : Vec F sh e) :
    (m.view.loc (c : Thread nD τ) ↦[m.view.set]{fullShare} h.unread x : sProp 𝕄)
      ⊢ iprop(∃ f, ⌜m.view.read (Elt F) f = x⌝ ∗ (m.view.loc (c : Thread nD τ) ↦[m.view.set]{fullShare} f)) := by
  iintro H; iexists _; isplitr; · ipureintro; exact h.read_unread _
  iexact H

abbrev rst0 (i : grid0.Coords) : Prop := (Scalar.cmpi .ne (Scalar.extui (Scalar.cmpi .eq (BitVec.ofNat 32 (i 2).val) 0#32)) 0#32) = 1#1
theorem rst0_iff : ∀ t : Fin cfg0.N, rst0 (grid0.coords t) ↔ t.val % 4 = 0 :=
  (by decide +kernel : ∀ t : Fin grid0.N, rst0 (grid0.coords t) ↔ t.val % 4 = 0)

abbrev fin0 (i : grid0.Coords) : Prop := k0_cond2 i = 1#1
theorem fin0_iff : ∀ t : Fin cfg0.N, fin0 (grid0.coords t) ↔ t.val % 4 = 3 :=
  (by decide +kernel : ∀ t : Fin grid0.N, fin0 (grid0.coords t) ↔ t.val % 4 = 3)

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)

abbrev accG : Memref sig .tc .vmem S1024x1024 .f32 := Memref.whole cc0_scratch0
abbrev accU : Memref sig .tc .vmem S1024x1024 .f32 := Memref.whole cc0_scratch1

abbrev VG0 : View sig .tc .vmem S1024x1024 .f32 := accG.view
abbrev VU0 : View sig .tc .vmem S1024x1024 .f32 := accU.view
abbrev VO0 : View sig .tc .vmem S1024x1024 .bf16 := (Memref.whole cc0_stg7_0 : Memref sig .tc .vmem S1024x1024 .bf16).view

abbrev RunSpec0 (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (accG accU : sProp 𝕄) : Type :=
  Σ' (LO : List (View.Piece (Elt F) S1024x1024 .bf16)) (LG : List (View.Piece (Elt F) S1024x1024 .f32)), { LU : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ accG ∗ accU
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LG) ∗ (∃ f, arg12.view.loc (c : Thread nD τ) ↦[arg12.view.set]{fullShare} arg12.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8 arg9 harg9 arg10 harg10 arg11 harg11 arg12 harg12) K }

end Cert.KernelIdeal.Fr

end
-- ==== Proof.KI.Run0A.lean ====
import proofs.«429270_j84954453115513_3_alg».proof.Proof.KI.Kit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
noncomputable def run0_A (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole) (hc0 : rst0 i) (hc1 : ¬fin0 i)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) :
    RunSpec0 c i arg3 harg3 arg4 harg4 arg5 harg5 arg6 harg6 arg7 harg7 arg8 harg8 arg9 harg9 arg10 harg10 arg11 harg11 arg12 harg12 x0 x1 x2 x3 x4 x5 x6
      iprop(∃ d, owns (c : Thread nD τ) arg11 fullShare d) iprop(∃ d, owns (c : Thread nD τ) arg12 fullShare d) := by
  refine ⟨[], ?_, ?_, fun E K => ?run⟩
  case run =>
    simp only [cc0__gate_up_kernel_eq_skeleton]; unfold cc0__gate_up_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iapply owns_of_unread c arg7 harg7 x4; iexact H4
    isplitl [H5]; · iapply owns_of_unread c arg8 harg8 x5; iexact H5
    isplitl [H6]; · iapply owns_of_unread c arg9 harg9 x6; iexact H6
    isplitl [H7]; · iexists _; iexact H7
    isplitl [HS0]; · iexists _; iexact HS0
    iexists _; iexact HS1

end Cert.KernelIdeal.Fr

end
-- ==== Proof.KI.Run0B.lean ====
import proofs.«429270_j84954453115513_3_alg».proof.Proof.KI.Kit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
noncomputable def run0_B (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole) (hc0 : ¬rst0 i) (hc1 : ¬fin0 i)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32) :
    RunSpec0 c i arg3 harg3 arg4 harg4 arg5 harg5 arg6 harg6 arg7 harg7 arg8 harg8 arg9 harg9 arg10 harg10 arg11 harg11 arg12 harg12 x0 x1 x2 x3 x4 x5 x6
      (owns (c : Thread nD τ) arg11 fullShare xs0) (owns (c : Thread nD τ) arg12 fullShare xs1) := by
  refine ⟨[], ?_, ?_, fun E K => ?run⟩
  case run =>
    simp only [cc0__gate_up_kernel_eq_skeleton]; unfold cc0__gate_up_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iapply owns_of_unread c arg7 harg7 x4; iexact H4
    isplitl [H5]; · iapply owns_of_unread c arg8 harg8 x5; iexact H5
    isplitl [H6]; · iapply owns_of_unread c arg9 harg9 x6; iexact H6
    isplitl [H7]; · iexists _; iexact H7
    isplitl [HS0]; · iexists _; iexact HS0
    iexists _; iexact HS1

end Cert.KernelIdeal.Fr

end
-- ==== Proof.KI.Run0C.lean ====
import proofs.«429270_j84954453115513_3_alg».proof.Proof.KI.Kit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
noncomputable def run0_C (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole) (hc0 : ¬rst0 i) (hc1 : fin0 i)
    (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32) :
    RunSpec0 c i arg3 harg3 arg4 harg4 arg5 harg5 arg6 harg6 arg7 harg7 arg8 harg8 arg9 harg9 arg10 harg10 arg11 harg11 arg12 harg12 x0 x1 x2 x3 x4 x5 x6
      (owns (c : Thread nD τ) arg11 fullShare xs0) (owns (c : Thread nD τ) arg12 fullShare xs1) := by
  refine ⟨?_, ?_, ?_, fun E K => ?run⟩
  case run =>
    simp only [cc0__gate_up_kernel_eq_skeleton]; unfold cc0__gate_up_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iapply owns_of_unread c arg7 harg7 x4; iexact H4
    isplitl [H5]; · iapply owns_of_unread c arg8 harg8 x5; iexact H5
    isplitl [H6]; · iapply owns_of_unread c arg9 harg9 x6; iexact H6
    isplitl [H7]; · iexists _; iexact H7
    isplitl [HS0]; · iexists _; iexact HS0
    iexists _; iexact HS1

end Cert.KernelIdeal.Fr

end
-- ==== Proof.KI.Pieces0.lean ====
import proofs.«429270_j84954453115513_3_alg».proof.Proof.KI.Run0A
import proofs.«429270_j84954453115513_3_alg».proof.Proof.KI.Run0B
import proofs.«429270_j84954453115513_3_alg».proof.Proof.KI.Run0C

set_option maxRecDepth 16384

noncomputable section

namespace Cert.KernelIdeal.Fr

open Cert.KernelIdeal.Gen Idealize.ShloMosaic Idealize.ShloMosaic.Tactic

variable {F : FTy → Type} [FloatOps F]

variable (c : Dev nD) (i : grid0.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x128 .i32) (harg7 : arg7.IsWhole) (arg8 : Memref sig .tc .vmem S8x1024 .f32) (harg8 : arg8.IsWhole) (arg9 : Memref sig .tc .vmem S8x128 .i32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S1024x1024 .f32) (harg12 : arg12.IsWhole)

section CaseA
variable (hc0 : rst0 i) (hc1 : ¬fin0 i) (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32)

-- Each piece list holds a piece that is the whole shape, so it covers every index.
theorem gcover0_A (y : S1024x1024.Idx) : ∃ pc ∈ (run0_A c i arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL _ S1024x1024.size (by sl_kernel_rfl) y

theorem ucover0_A (y : S1024x1024.Idx) : ∃ pc ∈ (run0_A c i arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL _ S1024x1024.size (by sl_kernel_rfl) y

def out0_A : Vec F S1024x1024 .bf16 := VO0.read (Elt F) (VO0.writes (Elt F) VO0.junk (run0_A c i arg3 harg3 arg4 harg4 arg5 harg5 arg6 harg6 arg7 harg7 arg8 harg8 arg9 harg9 arg10 harg10 arg11 harg11 arg12 harg12 hc0 hc1 x0 x1 x2 x3 x4 x5 x6).1)

def gate0_A : Vec F S1024x1024 .f32 := VG0.read (Elt F) (VG0.writes (Elt F) VG0.junk (run0_A c i arg3 harg3 arg4 harg4 arg5 harg5 arg6 harg6 arg7 harg7 arg8 harg8 arg9 harg9 arg10 harg10 arg11 harg11 arg12 harg12 hc0 hc1 x0 x1 x2 x3 x4 x5 x6).2.1)

def up0_A : Vec F S1024x1024 .f32 := VU0.read (Elt F) (VU0.writes (Elt F) VU0.junk (run0_A c i arg3 harg3 arg4 harg4 arg5 harg5 arg6 harg6 arg7 harg7 arg8 harg8 arg9 harg9 arg10 harg10 arg11 harg11 arg12 harg12 hc0 hc1 x0 x1 x2 x3 x4 x5 x6).2.2.1)

end CaseA

section CaseB
variable (hc0 : ¬rst0 i) (hc1 : ¬fin0 i) (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32)

theorem gcover0_B (y : S1024x1024.Idx) : ∃ pc ∈ (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL _ S1024x1024.size (by sl_kernel_rfl) y

theorem ucover0_B (y : S1024x1024.Idx) : ∃ pc ∈ (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL _ S1024x1024.size (by sl_kernel_rfl) y

def out0_B : Vec F S1024x1024 .bf16 := VO0.read (Elt F) (VO0.writes (Elt F) VO0.junk (run0_B c i arg3 harg3 arg4 harg4 arg5 harg5 arg6 harg6 arg7 harg7 arg8 harg8 arg9 harg9 arg10 harg10 arg11 harg11 arg12 harg12 hc0 hc1 x0 x1 x2 x3 x4 x5 x6 xs0 xs1).1)

def gate0_B : Vec F S1024x1024 .f32 := VG0.read (Elt F) (VG0.writes (Elt F) VG0.junk (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.1)

def up0_B : Vec F S1024x1024 .f32 := VU0.read (Elt F) (VU0.writes (Elt F) VU0.junk (run0_B c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

end CaseB

section CaseC
variable (hc0 : ¬rst0 i) (hc1 : fin0 i) (x0 : Vec F S1024x1024 .bf16) (x1 : Vec F S1024x128 .i32) (x2 : Vec F S8x1024 .f32) (x3 : Vec F S8x128 .i32) (x4 : Vec F S1024x128 .i32) (x5 : Vec F S8x1024 .f32) (x6 : Vec F S8x128 .i32) (xs0 : Vec F S1024x1024 .f32) (xs1 : Vec F S1024x1024 .f32)

theorem gcover0_C (y : S1024x1024.Idx) : ∃ pc ∈ (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL _ S1024x1024.size (by sl_kernel_rfl) y

theorem ucover0_C (y : S1024x1024.Idx) : ∃ pc ∈ (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL _ S1024x1024.size (by sl_kernel_rfl) y

theorem ocover0_C (y : S1024x1024.Idx) : ∃ pc ∈ (run0_C c i arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL _ S1024x1024.size (by sl_kernel_rfl) y

def out0_C : Vec F S1024x1024 .bf16 := VO0.read (Elt F) (VO0.writes (Elt F) VO0.junk (run0_C c i arg3 harg3 arg4 harg4 arg5 harg5 arg6 harg6 arg7 harg7 arg8 harg8 arg9 harg9 arg10 harg10 arg11 harg11 arg12 harg12 hc0 hc1 x0 x1 x2 x3 x4 x5 x6 xs0 xs1).1)

def gate0_C : Vec F S1024x1024 .f32 := VG0.read (Elt F) (VG0.writes (Elt F) VG0.junk (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.1)

def up0_C : Vec F S1024x1024 .f32 := VU0.read (Elt F) (VU0.writes (Elt F) VU0.junk (run0_C c i arg3 harg3 arg4 harg4 arg5 harg5 arg6 harg6 arg7 harg7 arg8 harg8 arg9 harg9 arg10 harg10 arg11 harg11 arg12 harg12 hc0 hc1 x0 x1 x2 x3 x4 x5 x6 xs0 xs1).2.2.1)

end CaseC

end Cert.KernelIdeal.Fr

end
-- ==== Proof.KI.Frame0.lean ====
import proofs.«429270_j84954453115513_3_alg».proof.Proof.KI.Pieces0
import Idealize.ShloMosaic.Lib.Pipeline.TableIdle

set_option maxRecDepth 16384

noncomputable section

namespace Cert.KernelIdeal.Fr

open Cert.KernelIdeal.Gen Idealize.ShloMosaic Idealize.ShloMosaic.TcCoe
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem idleAt0_7 : ∀ t : Fin cfg0.N, ¬t.val % 4 = 3 → cfg0.idle 7 (grid0.coords t) = true := by decide +kernel
theorem noFlush0_7 (t : Fin cfg0.N) (h : ¬t.val % 4 = 3) : (cfg0.win 7).flush t = false :=
  Bool.eq_false_iff.mpr fun hf => h ((flush0_7 t).mp hf)
theorem liveAt0_7 : ∀ t : Fin cfg0.N, t.val % 4 = 3 → cfg0.idle 7 (grid0.coords t) = false := by decide +kernel

theorem rst0_of (t : Fin cfg0.N) (h : t.val % 4 = 0) : rst0 (grid0.coords t) := (rst0_iff t).mpr h
theorem not_rst0_of (t : Fin cfg0.N) (h : ¬t.val % 4 = 0) : ¬rst0 (grid0.coords t) := fun hh => h ((rst0_iff t).mp hh)
theorem fin0_of (t : Fin cfg0.N) (h : t.val % 4 = 3) : fin0 (grid0.coords t) := (fin0_iff t).mpr h
theorem not_fin0_of (t : Fin cfg0.N) (h : ¬t.val % 4 = 3) : ¬fin0 (grid0.coords t) := fun hh => h ((fin0_iff t).mp hh)
theorem not_fin0_of_rst (t : Fin cfg0.N) (h : t.val % 4 = 0) : ¬fin0 (grid0.coords t) :=
  not_fin0_of t (by omega)
theorem not_rst0_of_fin (t : Fin cfg0.N) (h : t.val % 4 = 3) : ¬rst0 (grid0.coords t) :=
  not_rst0_of t (by omega)

def at0_A (c : Dev nD) (t : Fin cfg0.N) (h0 : t.val % 4 = 0) : Vec F S1024x1024 .bf16 × Vec F S1024x1024 .f32 × Vec F S1024x1024 .f32 :=
  (out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (rst0_of t h0) (not_fin0_of_rst t h0) (iblk0 V c 0 t) (iblk0 V c 1 t) (iblk0 V c 2 t) (iblk0 V c 3 t) (iblk0 V c 4 t) (iblk0 V c 5 t) (iblk0 V c 6 t),
   gate0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (rst0_of t h0) (not_fin0_of_rst t h0) (iblk0 V c 0 t) (iblk0 V c 1 t) (iblk0 V c 2 t) (iblk0 V c 3 t) (iblk0 V c 4 t) (iblk0 V c 5 t) (iblk0 V c 6 t),
   up0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (rst0_of t h0) (not_fin0_of_rst t h0) (iblk0 V c 0 t) (iblk0 V c 1 t) (iblk0 V c 2 t) (iblk0 V c 3 t) (iblk0 V c 4 t) (iblk0 V c 5 t) (iblk0 V c 6 t))
def at0_B (c : Dev nD) (t : Fin cfg0.N) (h0 : ¬t.val % 4 = 0) (h3 : ¬t.val % 4 = 3) (xs0 xs1 : Vec F S1024x1024 .f32) : Vec F S1024x1024 .bf16 × Vec F S1024x1024 .f32 × Vec F S1024x1024 .f32 :=
  (out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of t h0) (not_fin0_of t h3) (iblk0 V c 0 t) (iblk0 V c 1 t) (iblk0 V c 2 t) (iblk0 V c 3 t) (iblk0 V c 4 t) (iblk0 V c 5 t) (iblk0 V c 6 t) xs0 xs1,
   gate0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of t h0) (not_fin0_of t h3) (iblk0 V c 0 t) (iblk0 V c 1 t) (iblk0 V c 2 t) (iblk0 V c 3 t) (iblk0 V c 4 t) (iblk0 V c 5 t) (iblk0 V c 6 t) xs0 xs1,
   up0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of t h0) (not_fin0_of t h3) (iblk0 V c 0 t) (iblk0 V c 1 t) (iblk0 V c 2 t) (iblk0 V c 3 t) (iblk0 V c 4 t) (iblk0 V c 5 t) (iblk0 V c 6 t) xs0 xs1)
def at0_C (c : Dev nD) (t : Fin cfg0.N) (h3 : t.val % 4 = 3) (xs0 xs1 : Vec F S1024x1024 .f32) : Vec F S1024x1024 .bf16 × Vec F S1024x1024 .f32 × Vec F S1024x1024 .f32 :=
  (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of_fin t h3) (fin0_of t h3) (iblk0 V c 0 t) (iblk0 V c 1 t) (iblk0 V c 2 t) (iblk0 V c 3 t) (iblk0 V c 4 t) (iblk0 V c 5 t) (iblk0 V c 6 t) xs0 xs1,
   gate0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of_fin t h3) (fin0_of t h3) (iblk0 V c 0 t) (iblk0 V c 1 t) (iblk0 V c 2 t) (iblk0 V c 3 t) (iblk0 V c 4 t) (iblk0 V c 5 t) (iblk0 V c 6 t) xs0 xs1,
   up0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) accG (Memref.isWhole_whole _) accU (Memref.isWhole_whole _) (not_rst0_of_fin t h3) (fin0_of t h3) (iblk0 V c 0 t) (iblk0 V c 1 t) (iblk0 V c 2 t) (iblk0 V c 3 t) (iblk0 V c 4 t) (iblk0 V c 5 t) (iblk0 V c 6 t) xs0 xs1)
def outsAt0 (c : Dev nD) : (n : ℕ) → n < cfg0.N → Vec F S1024x1024 .bf16 × Vec F S1024x1024 .f32 × Vec F S1024x1024 .f32
  | 0, hn => at0_A V c ⟨0, hn⟩ (Nat.zero_mod _)
  | n + 1, hn =>
    if h0 : (n + 1) % 4 = 0 then at0_A V c ⟨n + 1, hn⟩ h0
    else if h3 : (n + 1) % 4 = 3 then
      at0_C V c ⟨n + 1, hn⟩ h3 (outsAt0 c n (Nat.lt_of_succ_lt hn)).2.1 (outsAt0 c n (Nat.lt_of_succ_lt hn)).2.2
    else
      at0_B V c ⟨n + 1, hn⟩ h0 h3 (outsAt0 c n (Nat.lt_of_succ_lt hn)).2.1 (outsAt0 c n (Nat.lt_of_succ_lt hn)).2.2
theorem outsAt0_A (c : Dev nD) (t : Fin cfg0.N) (h0 : t.val % 4 = 0) :
    outsAt0 V c t.val t.isLt = at0_A V c t h0 := by
  obtain ⟨n, hn⟩ := t
  cases n with
  | zero => exact rfl
  | succ n => exact (dif_pos h0).trans rfl
theorem outsAt0_B (c : Dev nD) (t : Fin cfg0.N) (h0 : ¬t.val % 4 = 0) (h3 : ¬t.val % 4 = 3) :
    outsAt0 V c t.val t.isLt = at0_B V c t h0 h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h3).trans rfl)
theorem outsAt0_C (c : Dev nD) (t : Fin cfg0.N) (h3 : t.val % 4 = 3) :
    outsAt0 V c t.val t.isLt = at0_C V c t h3 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd h3 (show ¬(0 % 4 = 3) by decide)
  | succ n =>
    have h3' : (n + 1) % 4 = 3 := h3
    exact (dif_neg (by omega)).trans ((dif_pos h3').trans rfl)

-- The class's invariant with the two accumulators' resources as parameters.
abbrev inv0 (c : Dev nD) (PG PU : sProp 𝕄) : sProp 𝕄 :=
  iprop(iprop(iprop(PG ∗ PU) ∗ Pipeline.scopedRestBut spec0 c [cc0_scratch0, cc0_scratch1]) ∗ (∃ r, prngReg c r))
theorem PhiA0_eq (c : Dev nD) :
    (Pipeline.ΦA spec0 c : sProp 𝕄)
      = inv0 c iprop(∃ d, owns (c : Thread nD τ) accG fullShare d) iprop(∃ d, owns (c : Thread nD τ) accU fullShare d) := by
  unfold Pipeline.ΦA; rw [Pipeline.scopedRest_split_of_list spec0 c [cc0_scratch0, cc0_scratch1] (by decide) (by decide)]
  simp only [accG, accU, owns_whole]; try rfl
def PhiS0 (c : Dev nD) : (n : ℕ) → n ≤ cfg0.N → sProp 𝕄
  | 0, _ => Pipeline.ΦA spec0 c
  | n + 1, hn => inv0 c (owns (c : Thread nD τ) accG fullShare (outsAt0 V c n hn).2.1) (owns (c : Thread nD τ) accU fullShare (outsAt0 V c n hn).2.2)
theorem PhiS0_succ (c : Dev nD) (n : ℕ) (hn : n < cfg0.N) :
    PhiS0 V c (n + 1) hn = inv0 c (owns (c : Thread nD τ) accG fullShare (outsAt0 V c n hn).2.1) (owns (c : Thread nD τ) accU fullShare (outsAt0 V c n hn).2.2) := rfl
theorem PhiS0_pos (c : Dev nD) (n : ℕ) (h : n ≤ cfg0.N) (hz : n ≠ 0) :
    PhiS0 V c n h = inv0 c (owns (c : Thread nD τ) accG fullShare (outsAt0 V c (n - 1) (by omega)).2.1) (owns (c : Thread nD τ) accU fullShare (outsAt0 V c (n - 1) (by omega)).2.2) := by
  cases n with
  | zero => exact absurd rfl hz
  | succ n => rfl

-- At every position the invariant gives the class's back: the accumulators' named contents are forgotten.
theorem PhiS0_weak (c : Dev nD) (n : ℕ) (h : n ≤ cfg0.N) : PhiS0 V c n h ⊢ Pipeline.ΦA spec0 c := by
  cases n with
  | zero => exact Entails.refl _
  | succ n =>
    rw [PhiS0_succ, PhiA0_eq]
    iintro ⟨⟨⟨HG, HU⟩, HR⟩, Hg⟩
    isplitl [HG HU HR]
    · isplitl [HG HU]
      · isplitl [HG]; · iexists _; iexact HG
        iexists _; iexact HU
      iexact HR
    iexact Hg

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0
theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_7 (c : Dev nD) (t : Fin cfg0.N) : (dat0 V c).after 7 t = (outsAt0 V c t.val t.isLt).1 := by dsimp only [dat0]

-- The seven input windows meet the same side conditions by computation, so one proof script serves them all.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ ∀ d, (dat0 V c).before 6 t d = iblk0 V c 6 t := by
  refine ⟨?_, ?_, ?_, ?_, ?_, ?_, ?_⟩ <;>
    exact fun d => ((dat0 V c).before_in_eq_fetched _ rfl (fun _ => rfl) (fun _ _ _ => rfl) (fun _ => rfl) t d).trans rfl

theorem before0_7 (c : Dev nD) (t : Fin cfg0.N) (d) : (dat0 V c).before 7 t d = d := by
  have hout : (cfg0.win 7).isOut = true := rfl
  rw [(dat0 V c).before_idle_run 7 ((cfg0.win 7).fetch_out hout) d (t.val % 4) t (Nat.mod_le _ _)
    (fun j h1 h2 => ⟨idleAt0_7 j (by omega), noFlush0_7 j (by omega)⟩)]
  refine (dat0 V c).before_out_reset 7 hout _ ?_ d
  by_cases hz : t.val - t.val % 4 = 0
  · exact Or.inl hz
  · exact Or.inr ⟨hz, (flush0_7 _).mpr (by show (t.val - t.val % 4 - 1) % 4 = 3; omega)⟩

theorem keep7 (c : Dev nD) (t : Fin cfg0.N) (h3 : ¬t.val % 4 = 3) (L : List (View.Piece (Elt F) S1024x1024 .bf16)) :
    iprop(∃ f, (ms0_7 t).view.loc (c : Thread nD τ) ↦[(ms0_7 t).view.set]{fullShare} (ms0_7 t).view.writes (Elt F) f L) ⊢ (dat0 V c).leavesExact 7 t := by
  rw [Dat.leavesExact_idle (dat0 V c) 7 t (idleAt0_7 t h3) (noFlush0_7 t h3)]
  simp only [before0_7]
  iintro ⟨%f, H⟩
  iexists _; unfold owns; iexists _; isplitr
  swap; · iexact H
  ipureintro; rfl

def bodyPre0 (c : Dev nD) (t : Fin cfg0.N) (Φ : sProp 𝕄) : sProp 𝕄 :=
  iprop(Φ ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) (Φ Q7 : sProp 𝕄) : sProp 𝕄 :=
  iprop(Φ ∗ (dat0 V c).owesAt () t.castSucc ∗ owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ Q7)

-- One proof for the three cases, from the case's run, its two covers and what the output's postcondition follows from.
theorem step0 (c : Dev nD) (t : Fin cfg0.N) {Φ PG PU Q7 : sProp 𝕄} {LO : List (View.Piece (Elt F) S1024x1024 .bf16)} {LG LU : List (View.Piece (Elt F) S1024x1024 .f32)}
    (hΦ : Φ ⊢ inv0 c PG PU)
    (run : ∀ K : PUnit → sProp 𝕄,
      iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ (∃ d, owns (c : Thread nD τ) (ms0_7 t) fullShare d) ∗ PG ∗ PU
          ∗ (iprop(owns (c : Thread nD τ) (ms0_0 t) fullShare (iblk0 V c 0 t) ∗ owns (c : Thread nD τ) (ms0_1 t) fullShare (iblk0 V c 1 t) ∗ owns (c : Thread nD τ) (ms0_2 t) fullShare (iblk0 V c 2 t) ∗ owns (c : Thread nD τ) (ms0_3 t) fullShare (iblk0 V c 3 t) ∗ owns (c : Thread nD τ) (ms0_4 t) fullShare (iblk0 V c 4 t) ∗ owns (c : Thread nD τ) (ms0_5 t) fullShare (iblk0 V c 5 t) ∗ owns (c : Thread nD τ) (ms0_6 t) fullShare (iblk0 V c 6 t) ∗ (∃ f, (ms0_7 t).view.loc (c : Thread nD τ) ↦[(ms0_7 t).view.set]{fullShare} (ms0_7 t).view.writes (Elt F) f LO) ∗ (∃ f, accG.view.loc (c : Thread nD τ) ↦[accG.view.set]{fullShare} accG.view.writes (Elt F) f LG) ∗ (∃ f, accU.view.loc (c : Thread nD τ) ↦[accU.view.set]{fullShare} accU.view.writes (Elt F) f LU)) -∗ K ⟨⟩))
        ⊢ wp frame (wpE (defs₀ (F := F)) Variants.none c none) Set.univ (bodyAt0 t) K)
    (hG : ∀ y, ∃ pc ∈ LG, y ∈ pc.1.set) (hU : ∀ y, ∃ pc ∈ LU, y ∈ pc.1.set)
    (h7 : iprop(∃ f, (ms0_7 t).view.loc (c : Thread nD τ) ↦[(ms0_7 t).view.set]{fullShare} (ms0_7 t).view.writes (Elt F) f LO) ⊢ Q7) :
    bodyPre0 V c t Φ ⊢ wp frame (wpE (defs₀ (F := F)) Variants.none c none) Set.univ (bodyAt0 t) (fun _ =>
      bodyPost0 V c t (inv0 c (owns (c : Thread nD τ) accG fullShare (VG0.read (Elt F) (VG0.writes (Elt F) VG0.junk LG))) (owns (c : Thread nD τ) accU fullShare (VU0.read (Elt F) (VU0.writes (Elt F) VU0.junk LU)))) Q7) := by
  unfold bodyPre0 bodyPost0
  obtain ⟨b0, b1, b2, b3, b4, b5, b6⟩ := before0 V c t
  simp only [b0, b1, b2, b3, b4, b5, b6, before0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave ⟨⟨⟨HG, HU⟩, HR⟩, Hg⟩ := hΦ $$ HΦ
  iapply (run _)
  iframe H0 H1 H2 H3 H4 H5 H6 HG HU
  isplitl [H7]; · iexists _; iexact H7
  iintro ⟨H0, H1, H2, H3, H4, H5, H6, H7, ⟨%eg, HG⟩, ⟨%eu, HU⟩⟩
  isplitl [HG HU HR Hg]
  · isplitl [HG HU HR]
    · isplitl [HG HU]
      · isplitl [HG]
        · unfold owns; iexists _; isplitr
          swap; · iexact HG
          ipureintro; exact View.read_writes_of_cover _ _ _ _ _ hG
        unfold owns; iexists _; isplitr
        swap; · iexact HU
        ipureintro; exact View.read_writes_of_cover _ _ _ _ _ hU
      iexact HR
    iexact Hg
  iframe Ho H0 H1 H2 H3 H4 H5 H6
  iapply h7; iexact H7

-- The point's residue mod 4 says which case it is in; the first point of a reduction run takes the accumulators at anything.
theorem sound_body0 (c : Dev nD) (t : Fin cfg0.N) :
    bodyPre0 V c t ((dat0 V c).Φ t.castSucc) ⊢ wp frame (wpE (defs₀ (F := F)) Variants.none c none) Set.univ (bodyAt0 t) (fun _ => bodyPost0 V c t ((dat0 V c).Φ t.succ) ((dat0 V c).leavesExact 7 t)) := by
  rw [show (dat0 V c).Φ t.succ = PhiS0 V c (t.val + 1) t.isLt from rfl, PhiS0_succ, PhiS0_castSucc]
  by_cases h0 : t.val % 4 = 0
  · have h3 : ¬t.val % 4 = 3 := by omega
    rw [outsAt0_A V c t h0]; unfold at0_A gate0_A up0_A; dsimp only
    have hw := PhiS0_weak V c t.val (Nat.le_of_lt t.isLt)
    rw [PhiA0_eq] at hw
    apply step0 V c t hw
    · exact fun K => (run0_A c (grid0.coords t) _ _ _ _ _ _ _ _ _ _ _ _ _ _ _ _ _ _ _ _ (rst0_of t h0) (not_fin0_of_rst t h0) _ _ _ _ _ _ _).2.2.2 Set.univ K
    · exact gcover0_A c _ _ _ _ _ _ _ _ _ _ _ _ _ _ _ _ _ _ _ _ _ _ _ _ _ _ _ _ _ _
    · exact ucover0_A c _ _ _ _ _ _ _ _ _ _ _ _ _ _ _ _ _ _ _ _ _ _ _ _ _ _ _ _ _ _
    · exact keep7 V c t h3 _
  · have hz : t.val ≠ 0 := fun h => h0 (by rw [h])
    rw [PhiS0_pos V c _ _ hz]
    by_cases h3 : t.val % 4 = 3
    · rw [show (dat0 V c).leavesExact 7 t = owns (c : Thread nD τ) (ms0_7 t) fullShare ((dat0 V c).after 7 t) from by
        unfold Dat.leavesExact; rw [liveAt0_7 t h3], after0_7, outsAt0_C V c t h3]
      unfold at0_C out0_C gate0_C up0_C; dsimp only
      apply step0 V c t (Entails.refl _)
      · exact fun K => (run0_C c (grid0.coords t) _ _ _ _ _ _ _ _ _ _ _ _ _ _ _ _ _ _ _ _ (not_rst0_of_fin t h3) (fin0_of t h3) _ _ _ _ _ _ _ _ _).2.2.2 Set.univ K
      · exact gcover0_C c _ _ _ _ _ _ _ _ _ _ _ _ _ _ _ _ _ _ _ _ _ _ _ _ _ _ _ _ _ _ _ _
      · exact ucover0_C c _ _ _ _ _ _ _ _ _ _ _ _ _ _ _ _ _ _ _ _ _ _ _ _ _ _ _ _ _ _ _ _
      · unfold owns; iintro ⟨%f, H⟩; iexists _; isplitr
        swap; · iexact H
        ipureintro; exact View.read_writes_of_cover _ _ _ _ _ (ocover0_C c _ _ _ _ _ _ _ _ _ _ _ _ _ _ _ _ _ _ _ _ _ _ _ _ _ _ _ _ _ _ _ _)
    · rw [outsAt0_B V c t h0 h3]; unfold at0_B gate0_B up0_B; dsimp only
      apply step0 V c t (Entails.refl _)
      · exact fun K => (run0_B c (grid0.coords t) _ _ _ _ _ _ _ _ _ _ _ _ _ _ _ _ _ _ _ _ (not_rst0_of t h0) (not_fin0_of t h3) _ _ _ _ _ _ _ _ _).2.2.2 Set.univ K
      · exact gcover0_B c _ _ _ _ _ _ _ _ _ _ _ _ _ _ _ _ _ _ _ _ _ _ _ _ _ _ _ _ _ _ _ _
      · exact ucover0_B c _ _ _ _ _ _ _ _ _ _ _ _ _ _ _ _ _ _ _ _ _ _ _ _ _ _ _ _ _ _ _ _
      · exact keep7 V c t h3 _

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Entails.refl _

theorem Phi_out0 (c : Dev nD) (t : Fin (cfg0.N + 1)) : (dat0 V c).Φ t ⊢ Pipeline.ΦA spec0 c :=
  PhiS0_weak V c t.val (Nat.le_of_lt_succ t.isLt)

theorem hout0 (c : Dev nD) : (dat0 V c).Φ (Fin.last cfg0.N) ⊢ Pipeline.ΦA spec0 c := Phi_out0 V c _

end Region0

end Cert.KernelIdeal.Fr

end
-- ==== Proof.KI.Kit1.lean ====
import proofs.«429270_j84954453115513_3_alg».proof.Proof.Gen.KernelIdeal.Launch
import proofs.«429270_j84954453115513_3_alg».proof.Proof.Gen.KernelIdeal.Skeleton
import proofs.«429270_j84954453115513_3_alg».proof.Proof.Gen.KernelIdeal.Points
import proofs.«429270_j84954453115513_3_alg».proof.Proof.KI.Kit0
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev rst1 (i : grid1.Coords) : Prop := (Scalar.cmpi .ne (Scalar.extui (Scalar.cmpi .eq (BitVec.ofNat 32 (i 2).val) 0#32)) 0#32) = 1#1
theorem rst1_iff : ∀ t : Fin cfg1.N, rst1 (grid1.coords t) ↔ t.val % 11 = 0 :=
  (by decide +kernel : ∀ t : Fin grid1.N, rst1 (grid1.coords t) ↔ t.val % 11 = 0)

abbrev fin1 (i : grid1.Coords) : Prop := k1_cond2 i = 1#1
theorem fin1_iff : ∀ t : Fin cfg1.N, fin1 (grid1.coords t) ↔ t.val % 11 = 10 :=
  (by decide +kernel : ∀ t : Fin grid1.N, fin1 (grid1.coords t) ↔ t.val % 11 = 10)

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)

abbrev acc1 : Memref sig .tc .vmem S1024x1024 .f32 := Memref.whole cc1_scratch0

abbrev VA1 : View sig .tc .vmem S1024x1024 .f32 := acc1.view
abbrev VO1 : View sig .tc .vmem S1024x1024 .f32 := (Memref.whole cc1_stg4_0 : Memref sig .tc .vmem S1024x1024 .f32).view

abbrev RunSpec1 (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole)
    (x0 : Vec F S1024x1024 .bf16) (x1 : Vec F S1024x128 .i32) (x2 : Vec F S8x1024 .f32) (x3 : Vec F S8x128 .i32) (accPre : sProp 𝕄) : Type :=
  Σ' (LO : List (View.Piece (Elt F) S1024x1024 .f32)), { LA : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ accPre
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA)) -∗ K ⟨⟩))
          ⊢ wp frame (wpE (defs₀ (F := F)) Variants.none c none) E (cc1__down_kernel i arg3 harg3 arg4 harg4 arg5 harg5 arg6 harg6 arg7 harg7 arg8 harg8) K }

end Cert.KernelIdeal.Fr

end
-- ==== Proof.KI.Run1A.lean ====
import proofs.«429270_j84954453115513_3_alg».proof.Proof.KI.Kit1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def run1_A (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole) (hc0 : rst1 i) (hc1 : ¬fin1 i)
    (x0 : Vec F S1024x1024 .bf16) (x1 : Vec F S1024x128 .i32) (x2 : Vec F S8x1024 .f32) (x3 : Vec F S8x128 .i32) :
    RunSpec1 c i arg3 harg3 arg4 harg4 arg5 harg5 arg6 harg6 arg7 harg7 arg8 harg8 x0 x1 x2 x3 iprop(∃ d, owns (c : Thread nD τ) arg8 fullShare d) := by
  refine ⟨[], ?_, fun E K => ?run⟩
  case run =>
    simp only [cc1__down_kernel_eq_skeleton]; unfold cc1__down_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iexists _; iexact H4
    iexists _; iexact HS0

end Cert.KernelIdeal.Fr

end
-- ==== Proof.KI.Run1B.lean ====
import proofs.«429270_j84954453115513_3_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def run1_B (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole) (hc0 : ¬rst1 i) (hc1 : ¬fin1 i)
    (x0 : Vec F S1024x1024 .bf16) (x1 : Vec F S1024x128 .i32) (x2 : Vec F S8x1024 .f32) (x3 : Vec F S8x128 .i32) (xs0 : Vec F S1024x1024 .f32) :
    RunSpec1 c i arg3 harg3 arg4 harg4 arg5 harg5 arg6 harg6 arg7 harg7 arg8 harg8 x0 x1 x2 x3 (owns (c : Thread nD τ) arg8 fullShare xs0) := by
  refine ⟨[], ?_, fun E K => ?run⟩
  case run =>
    simp only [cc1__down_kernel_eq_skeleton]; unfold cc1__down_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iexists _; iexact H4
    iexists _; iexact HS0

end Cert.KernelIdeal.Fr

end
-- ==== Proof.KI.Run1C.lean ====
import proofs.«429270_j84954453115513_3_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def run1_C (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole) (hc0 : ¬rst1 i) (hc1 : fin1 i)
    (x0 : Vec F S1024x1024 .bf16) (x1 : Vec F S1024x128 .i32) (x2 : Vec F S8x1024 .f32) (x3 : Vec F S8x128 .i32) (xs0 : Vec F S1024x1024 .f32) :
    RunSpec1 c i arg3 harg3 arg4 harg4 arg5 harg5 arg6 harg6 arg7 harg7 arg8 harg8 x0 x1 x2 x3 (owns (c : Thread nD τ) arg8 fullShare xs0) := by
  refine ⟨?_, ?_, fun E K => ?run⟩
  case run =>
    simp only [cc1__down_kernel_eq_skeleton]; unfold cc1__down_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]; · iapply owns_of_unread c arg3 harg3 x0; iexact H0
    isplitl [H1]; · iapply owns_of_unread c arg4 harg4 x1; iexact H1
    isplitl [H2]; · iapply owns_of_unread c arg5 harg5 x2; iexact H2
    isplitl [H3]; · iapply owns_of_unread c arg6 harg6 x3; iexact H3
    isplitl [H4]; · iexists _; iexact H4
    iexists _; iexact HS0

end Cert.KernelIdeal.Fr

end
-- ==== Proof.KI.Pieces1.lean ====
import proofs.«429270_j84954453115513_3_alg».proof.Proof.KI.Run1C

noncomputable section

namespace Cert.KernelIdeal.Fr

open Cert.KernelIdeal Cert.KernelIdeal.Gen
open Idealize.ShloMosaic Idealize.ShloMosaic.TcCoe

variable {F : FTy → Type} [FloatOps F]

variable (c : Dev nD) (i : grid1.Coords) (arg3 : Memref sig .tc .vmem S1024x1024 .bf16) (harg3 : arg3.IsWhole) (arg4 : Memref sig .tc .vmem S1024x128 .i32) (harg4 : arg4.IsWhole) (arg5 : Memref sig .tc .vmem S8x1024 .f32) (harg5 : arg5.IsWhole) (arg6 : Memref sig .tc .vmem S8x128 .i32) (harg6 : arg6.IsWhole) (arg7 : Memref sig .tc .vmem S1024x1024 .f32) (harg7 : arg7.IsWhole) (arg8 : Memref sig .tc .vmem S1024x1024 .f32) (harg8 : arg8.IsWhole)

section
variable (hc0 : rst1 i) (hc1 : ¬fin1 i) (x0 : Vec F S1024x1024 .bf16) (x1 : Vec F S1024x128 .i32) (x2 : Vec F S8x1024 .f32) (x3 : Vec F S8x128 .i32)

-- Every store of the body is of the whole block, so a case's pieces cover the buffer.
theorem cover_accA (y : S1024x1024.Idx) : ∃ pc ∈ (run1_A c i arg3 harg3 arg4 harg4 arg5 harg5 arg6 harg6 arg7 harg7 arg8 harg8 hc0 hc1 x0 x1 x2 x3).2.1, y ∈ pc.1.set :=
  View.cover_of_tiledL _ S1024x1024.size (by sl_kernel_rfl) y

def accA : Vec F S1024x1024 .f32 :=
  VA1.read (Elt F) (VA1.writes (Elt F) VA1.junk (run1_A c i arg3 harg3 arg4 harg4 arg5 harg5 arg6 harg6 arg7 harg7 arg8 harg8 hc0 hc1 x0 x1 x2 x3).2.1)

end

section
variable (hc0 : ¬rst1 i) (hc1 : ¬fin1 i) (x0 : Vec F S1024x1024 .bf16) (x1 : Vec F S1024x128 .i32) (x2 : Vec F S8x1024 .f32) (x3 : Vec F S8x128 .i32) (xs0 : Vec F S1024x1024 .f32)

theorem cover_accB (y : S1024x1024.Idx) : ∃ pc ∈ (run1_B c i arg3 harg3 arg4 harg4 arg5 harg5 arg6 harg6 arg7 harg7 arg8 harg8 hc0 hc1 x0 x1 x2 x3 xs0).2.1, y ∈ pc.1.set :=
  View.cover_of_tiledL _ S1024x1024.size (by sl_kernel_rfl) y

def accB : Vec F S1024x1024 .f32 :=
  VA1.read (Elt F) (VA1.writes (Elt F) VA1.junk (run1_B c i arg3 harg3 arg4 harg4 arg5 harg5 arg6 harg6 arg7 harg7 arg8 harg8 hc0 hc1 x0 x1 x2 x3 xs0).2.1)

end

section
variable (hc0 : ¬rst1 i) (hc1 : fin1 i) (x0 : Vec F S1024x1024 .bf16) (x1 : Vec F S1024x128 .i32) (x2 : Vec F S8x1024 .f32) (x3 : Vec F S8x128 .i32) (xs0 : Vec F S1024x1024 .f32)

theorem cover_accC (y : S1024x1024.Idx) : ∃ pc ∈ (run1_C c i arg3 harg3 arg4 harg4 arg5 harg5 arg6 harg6 arg7 harg7 arg8 harg8 hc0 hc1 x0 x1 x2 x3 xs0).2.1, y ∈ pc.1.set :=
  View.cover_of_tiledL _ S1024x1024.size (by sl_kernel_rfl) y

def accC : Vec F S1024x1024 .f32 :=
  VA1.read (Elt F) (VA1.writes (Elt F) VA1.junk (run1_C c i arg3 harg3 arg4 harg4 arg5 harg5 arg6 harg6 arg7 harg7 arg8 harg8 hc0 hc1 x0 x1 x2 x3 xs0).2.1)

theorem cover_outC (y : S1024x1024.Idx) : ∃ pc ∈ (run1_C c i arg3 harg3 arg4 harg4 arg5 harg5 arg6 harg6 arg7 harg7 arg8 harg8 hc0 hc1 x0 x1 x2 x3 xs0).1, y ∈ pc.1.set :=
  View.cover_of_tiledL _ S1024x1024.size (by sl_kernel_rfl) y

def outC : Vec F S1024x1024 .f32 :=
  VO1.read (Elt F) (VO1.writes (Elt F) VO1.junk (run1_C c i arg3 harg3 arg4 harg4 arg5 harg5 arg6 harg6 arg7 harg7 arg8 harg8 hc0 hc1 x0 x1 x2 x3 xs0).1)

end

-- Cases A and B store nothing into the output block; nothing consults this value.
def outIdle1 : Vec F S1024x1024 .f32 := VO1.read (Elt F) VO1.junk

end Cert.KernelIdeal.Fr

end
-- ==== Proof.KI.Frame1.lean ====
import proofs.«429270_j84954453115513_3_alg».proof.Proof.KI.Pieces1
import Idealize.ShloMosaic.Lib.Pipeline.Kit

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idleAt1_4 (t : Fin cfg1.N) (h : ¬fin1 (grid1.coords t)) : cfg1.idle 4 (grid1.coords t) = true :=
  congrArg (!·) (beq_eq_false_iff_ne.mpr h)
theorem liveAt1_4 (t : Fin cfg1.N) (h : fin1 (grid1.coords t)) : cfg1.idle 4 (grid1.coords t) = false :=
  congrArg (!·) (beq_iff_eq.mpr h)
theorem noFlush1_4 (t : Fin cfg1.N) (h : ¬fin1 (grid1.coords t)) : (cfg1.win 4).flush t = false :=
  Bool.eq_false_iff.mpr fun hf => h ((fin1_iff t).mpr ((flush1_4 t).mp hf))

theorem before1_4 {c : Dev nD} (dat : Dat τ (Elt F) Unit ℕ (Pipeline.UD sig nD τ) ℕ cfg1 c) (t : Fin cfg1.N) (d) :
    dat.before 4 t d = d := by
  induction hn : t.val using Nat.strong_induction_on generalizing t with
  | _ n ih =>
    subst hn
    by_cases ht : t.val = 0
    · exact dat.before_out_reset 4 rfl t (.inl ht) d
    · by_cases hfl : (cfg1.win 4).flush ⟨t.val - 1, Nat.lt_of_le_of_lt (Nat.sub_le _ _) t.isLt⟩ = true
      · exact dat.before_out_reset 4 rfl t (.inr ⟨ht, hfl⟩) d
      · rw [dat.before_of_pos 4 t ht ((cfg1.win 4).fetch_out rfl t), if_neg hfl]
        unfold Dat.left
        rw [idleAt1_4 _ fun h => hfl ((flush1_4 _).mpr ((fin1_iff _).mp h))]
        exact ih (t.val - 1) (by omega) ⟨t.val - 1, Nat.lt_of_le_of_lt (Nat.sub_le _ _) t.isLt⟩ rfl

def rest1 (c : Dev nD) : sProp 𝕄 :=
  Pipeline.scopedRestBut (Ix := Unit) (Name := ℕ) (U := Pipeline.UD sig nD τ) (Lvl := ℕ) (Val := Elt F) spec1 c [cc1_scratch0]

theorem PhiA1_eq (c : Dev nD) :
    (Pipeline.ΦA spec1 c : sProp 𝕄)
      = iprop(((∃ d, owns (c : Thread nD τ) acc1 fullShare d) ∗ rest1 (F := F) c) ∗ (∃ r, prngReg c r)) := by
  unfold Pipeline.ΦA rest1
  rw [Pipeline.scopedRest_split_of_list spec1 c [cc1_scratch0] (by decide) (by decide)]
  simp only [acc1, owns_whole] <;> rfl

-- One point: the accumulator starts afresh where the reduction coordinate is 0 and is copied out where it is 10.
def stepAt1 (c : Dev nD) (t : Fin cfg1.N) (prev : Vec F S1024x1024 .f32) : Vec F S1024x1024 .f32 × Vec F S1024x1024 .f32 :=
  if h0 : t.val % 11 = 0 then
    (outIdle1, accA c (grid1.coords t) (ms1_0 t) (hs1_0 t) (ms1_1 t) (hs1_1 t) (ms1_2 t) (hs1_2 t) (ms1_3 t) (hs1_3 t) (ms1_4 t) (hs1_4 t) acc1 (Memref.isWhole_whole _) ((rst1_iff t).mpr h0) (fun h => by have := (fin1_iff t).mp h; omega) (iblk1 V c 0 t) (iblk1 V c 1 t) (iblk1 V c 2 t) (iblk1 V c 3 t))
  else if h1 : t.val % 11 = 10 then
    (outC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) prev,
      accC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) prev)
  else
    (outIdle1, accB c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) (fun h => h1 ((fin1_iff t).mp h)) (iblk1 V c 0 t) (iblk1 V c 1 t) (iblk1 V c 2 t) (iblk1 V c 3 t) prev)

def outsAt1 (c : Dev nD) : (n : ℕ) → n < cfg1.N → Vec F S1024x1024 .f32 × Vec F S1024x1024 .f32
  | 0, hn => stepAt1 V c ⟨0, hn⟩ (VA1.read (Elt F) VA1.junk)
  | n + 1, hn => stepAt1 V c ⟨n + 1, hn⟩ (outsAt1 c n (Nat.lt_of_succ_lt hn)).2

theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨_ | n, hn⟩ := t
  exacts [absurd rfl hz, rfl]

theorem outsAt1_A (c : Dev nD) (t : Fin cfg1.N) (h0 : t.val % 11 = 0) (h1 : ¬t.val % 11 = 10) :
    outsAt1 V c t.val t.isLt = (outIdle1, accA c (grid1.coords t) (ms1_0 t) (hs1_0 t) (ms1_1 t) (hs1_1 t) (ms1_2 t) (hs1_2 t) (ms1_3 t) (hs1_3 t) (ms1_4 t) (hs1_4 t) acc1 (Memref.isWhole_whole _) ((rst1_iff t).mpr h0) (fun h => h1 ((fin1_iff t).mp h)) (iblk1 V c 0 t) (iblk1 V c 1 t) (iblk1 V c 2 t) (iblk1 V c 3 t)) := by
  obtain ⟨_ | n, hn⟩ := t <;> (unfold outsAt1 stepAt1; rw [dif_pos h0])

theorem outsAt1_B (c : Dev nD) (t : Fin cfg1.N) (h0 : ¬t.val % 11 = 0) (h1 : ¬t.val % 11 = 10) :
    outsAt1 V c t.val t.isLt = (outIdle1, accB c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) (fun h => h1 ((fin1_iff t).mp h)) (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t fun hz => h0 (by rw [hz])]; unfold stepAt1; rw [dif_neg h0, dif_neg h1]

theorem outsAt1_C (c : Dev nD) (t : Fin cfg1.N) (h0 : ¬t.val % 11 = 0) (h1 : t.val % 11 = 10) :
    outsAt1 V c t.val t.isLt = (outC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) (outsAt1 V c (t.val - 1) (Nat.lt_of_le_of_lt (Nat.sub_le _ _) t.isLt)).2,
      accC c (grid1.coords t) (ms1_0 t) (hs1_0 t) (ms1_1 t) (hs1_1 t) (ms1_2 t) (hs1_2 t) (ms1_3 t) (hs1_3 t) (ms1_4 t) (hs1_4 t) acc1 (Memref.isWhole_whole _) (fun h => h0 ((rst1_iff t).mp h)) ((fin1_iff t).mpr h1) (iblk1 V c 0 t) (iblk1 V c 1 t) (iblk1 V c 2 t) (iblk1 V c 3 t) (outsAt1 V c (t.val - 1) (Nat.lt_of_le_of_lt (Nat.sub_le _ _) t.isLt)).2) := by
  rw [outsAt1_pos V c t fun hz => h0 (by rw [hz])]; unfold stepAt1; rw [dif_neg h0, dif_pos h1]

-- The invariant before point n carries the accumulator at what the point before left in it.
def PhiS1 (c : Dev nD) : (n : ℕ) → n ≤ cfg1.N → sProp 𝕄
  | 0, _ => Pipeline.ΦA spec1 c
  | n + 1, hn => iprop((owns (c : Thread nD τ) acc1 fullShare (outsAt1 V c n hn).2 ∗ rest1 (F := F) c) ∗ (∃ r, prngReg c r))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = (outsAt1 V c t.val t.isLt).1 := rfl

theorem Phi_pos1 (c : Dev nD) (t : Fin cfg1.N) (hz : t.val ≠ 0) :
    (dat1 V c).Φ t.castSucc = iprop((owns (c : Thread nD τ) acc1 fullShare (outsAt1 V c (t.val - 1) (Nat.lt_of_le_of_lt (Nat.sub_le _ _) t.isLt)).2 ∗ rest1 (F := F) c) ∗ (∃ r, prngReg c r)) := by
  obtain ⟨_ | n, hn⟩ := t
  exacts [absurd rfl hz, rfl]

-- Forgetting the accumulator's contents gives the entry invariant back.
theorem Phi_weak1 (c : Dev nD) (t : Fin (cfg1.N + 1)) :
    (dat1 V c).Φ t ⊢ iprop(((∃ d, owns (c : Thread nD τ) acc1 fullShare d) ∗ rest1 (F := F) c) ∗ (∃ r, prngReg c r)) := by
  obtain ⟨_ | n, hn⟩ := t
  · rw [← PhiA1_eq c] <;> exact Entails.refl _
  · show iprop((owns (c : Thread nD τ) acc1 fullShare (outsAt1 V c n _).2 ∗ rest1 (F := F) c) ∗ (∃ r, prngReg c r)) ⊢ _
    iintro ⟨⟨HS, HR⟩, Hg⟩
    iframe HR Hg
    iexists _; iexact HS

theorem before1_0 (c : Dev nD) (t : Fin cfg1.N) (d) : (dat1 V c).before 0 t d = iblk1 V c 0 t := ((dat1 V c).before_fetched 0 t (fetch1_0 t) d).trans rfl
theorem before1_1 (c : Dev nD) (t : Fin cfg1.N) (d) : (dat1 V c).before 1 t d = iblk1 V c 1 t := ((dat1 V c).before_fetched 1 t (fetch1_1 t) d).trans rfl
theorem before1_2 (c : Dev nD) (t : Fin cfg1.N) (d) : (dat1 V c).before 2 t d = iblk1 V c 2 t := ((dat1 V c).before_fetched 2 t (fetch1_2 t) d).trans rfl
theorem before1_3 (c : Dev nD) (t : Fin cfg1.N) (d) : (dat1 V c).before 3 t d = iblk1 V c 3 t := ((dat1 V c).before_fetched 3 t (fetch1_3 t) d).trans rfl

theorem leaves1_0 (c : Dev nD) (t : Fin cfg1.N) : (dat1 V c).leavesExact 0 t = owns (c : Thread nD τ) (ms1_0 t) fullShare (iblk1 V c 0 t) := rfl
theorem leaves1_1 (c : Dev nD) (t : Fin cfg1.N) : (dat1 V c).leavesExact 1 t = owns (c : Thread nD τ) (ms1_1 t) fullShare (iblk1 V c 1 t) := rfl
theorem leaves1_2 (c : Dev nD) (t : Fin cfg1.N) : (dat1 V c).leavesExact 2 t = owns (c : Thread nD τ) (ms1_2 t) fullShare (iblk1 V c 2 t) := rfl
theorem leaves1_3 (c : Dev nD) (t : Fin cfg1.N) : (dat1 V c).leavesExact 3 t = owns (c : Thread nD τ) (ms1_3 t) fullShare (iblk1 V c 3 t) := rfl

set_option maxHeartbeats 1000000 in
-- The point's number mod 11 says which case's run applies; its pieces cover what it stores.
theorem sound_body1 (c : Dev nD) (t : Fin cfg1.N) :
    iprop((dat1 V c).Φ t.castSucc ∗ (dat1 V c).owesAt () t.castSucc ∗ (∃ d, owns (c : Thread nD τ) (ms1_0 t) fullShare ((dat1 V c).before 0 t d)) ∗ (∃ d, owns (c : Thread nD τ) (ms1_1 t) fullShare ((dat1 V c).before 1 t d)) ∗ (∃ d, owns (c : Thread nD τ) (ms1_2 t) fullShare ((dat1 V c).before 2 t d)) ∗ (∃ d, owns (c : Thread nD τ) (ms1_3 t) fullShare ((dat1 V c).before 3 t d)) ∗ (∃ d, owns (c : Thread nD τ) (ms1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t)) := by
  simp only [before1_0, before1_1, before1_2, before1_3, before1_4]
  rw [show (dat1 V c).owesAt () t.succ = (dat1 V c).owesAt () t.castSucc from rfl,
    show (dat1 V c).Φ t.succ = iprop((owns (c : Thread nD τ) acc1 fullShare (outsAt1 V c t.val t.isLt).2 ∗ rest1 (F := F) c) ∗ (∃ r, prngReg c r)) from rfl,
    leaves1_0, leaves1_1, leaves1_2, leaves1_3]
  by_cases h0 : t.val % 11 = 0
  · have h1 : ¬t.val % 11 = 10 := by omega
    have hfin : ¬fin1 (grid1.coords t) := fun h => h1 ((fin1_iff t).mp h)
    rw [Dat.leavesExact_idle (dat1 V c) 4 t (idleAt1_4 t hfin) (noFlush1_4 t hfin)]
    simp only [before1_4]
    rw [outsAt1_A V c t h0 h1]
    unfold accA; (try dsimp only)
    refine (sep_mono_left (Phi_weak1 V c t.castSucc)).trans ?_
    iintro ⟨⟨⟨HS0, HR⟩, Hg⟩, Ho, ⟨%d0, H0⟩, ⟨%d1, H1⟩, ⟨%d2, H2⟩, ⟨%d3, H3⟩, H4⟩
    iapply ((run1_A c (grid1.coords t) _ _ _ _ _ _ _ _ _ _ _ _ ((rst1_iff t).mpr h0) hfin (iblk1 V c 0 t) (iblk1 V c 1 t) (iblk1 V c 2 t) (iblk1 V c 3 t)).2.2 Set.univ _)
    iframe H0 H1 H2 H3 H4 HS0
    iintro ⟨H0, H1, H2, H3, ⟨%e4, H4⟩, ⟨%es0, HS0⟩⟩
    iframe HR Hg Ho H0 H1 H2 H3
    isplitl [HS0]
    · unfold owns; iexists _; isplitr
      swap; · iexact HS0
      ipureintro; exact View.read_writes_of_cover _ _ _ _ _ (fun _ => cover_accA ..)
    iexists _; unfold owns; iexists _; isplitr
    swap; · iexact H4
    ipureintro; rfl
  · have hz : t.val ≠ 0 := fun hz => h0 (by rw [hz])
    have hrst : ¬rst1 (grid1.coords t) := fun h => h0 ((rst1_iff t).mp h)
    by_cases h1 : t.val % 11 = 10
    · have hfin : fin1 (grid1.coords t) := (fin1_iff t).mpr h1
      rw [show (dat1 V c).leavesExact 4 t = owns (c : Thread nD τ) (ms1_4 t) fullShare ((dat1 V c).after 4 t) from by
        unfold Dat.leavesExact; rw [liveAt1_4 t hfin], after1_4]
      rw [outsAt1_C V c t h0 h1]
      unfold outC accC; (try dsimp only)
      rw [Phi_pos1 V c t hz]
      iintro ⟨⟨⟨HS0, HR⟩, Hg⟩, Ho, ⟨%d0, H0⟩, ⟨%d1, H1⟩, ⟨%d2, H2⟩, ⟨%d3, H3⟩, H4⟩
      iapply ((run1_C c (grid1.coords t) _ _ _ _ _ _ _ _ _ _ _ _ hrst hfin (iblk1 V c 0 t) (iblk1 V c 1 t) (iblk1 V c 2 t) (iblk1 V c 3 t) _).2.2 Set.univ _)
      iframe H0 H1 H2 H3 H4 HS0
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact View.read_writes_of_cover _ _ _ _ _ (fun _ => cover_accC ..)
      unfold owns; iexists _; isplitr
      swap; · iexact H4
      ipureintro; exact View.read_writes_of_cover _ _ _ _ _ (fun _ => cover_outC ..)
    · have hfin : ¬fin1 (grid1.coords t) := fun h => h1 ((fin1_iff t).mp h)
      rw [Dat.leavesExact_idle (dat1 V c) 4 t (idleAt1_4 t hfin) (noFlush1_4 t hfin)]
      simp only [before1_4]
      rw [outsAt1_B V c t h0 h1]
      unfold accB; (try dsimp only)
      rw [Phi_pos1 V c t hz]
      iintro ⟨⟨⟨HS0, HR⟩, Hg⟩, Ho, ⟨%d0, H0⟩, ⟨%d1, H1⟩, ⟨%d2, H2⟩, ⟨%d3, H3⟩, H4⟩
      iapply ((run1_B c (grid1.coords t) _ _ _ _ _ _ _ _ _ _ _ _ hrst hfin (iblk1 V c 0 t) (iblk1 V c 1 t) (iblk1 V c 2 t) (iblk1 V c 3 t) _).2.2 Set.univ _)
      iframe H0 H1 H2 H3 H4 HS0
      iintro ⟨H0, H1, H2, H3, ⟨%e4, H4⟩, ⟨%es0, HS0⟩⟩
      iframe HR Hg Ho H0 H1 H2 H3
      isplitl [HS0]
      · unfold owns; iexists _; isplitr
        swap; · iexact HS0
        ipureintro; exact View.read_writes_of_cover _ _ _ _ _ (fun _ => cover_accB ..)
      iexists _; unfold owns; iexists _; isplitr
      swap; · iexact H4
      ipureintro; rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

theorem hout1 (c : Dev nD) : (dat1 V c).Φ (Fin.last cfg1.N) ⊢ Pipeline.ΦA spec1 c := by
  rw [PhiA1_eq]; exact Phi_weak1 V c _

end Region1

end Cert.KernelIdeal.Fr

end
-- ==== Proof.KI.Regs.lean ====
import proofs.«429270_j84954453115513_3_alg».proof.Proof.Gen.KernelIdeal.Regions
import proofs.«429270_j84954453115513_3_alg».proof.Proof.KI.Frame0
import proofs.«429270_j84954453115513_3_alg».proof.Proof.KI.Frame1
import Idealize.ShloMosaic.Lib.Pipeline.RegionsLoop
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev Vin0 (c : Dev nD) (b : Ref sig .tc) : Buf (Elt F) ((c : Thread nD τ).loc b) := V12 m c b
def Wout0 (c : Dev nD) : Valuation τ sig (Elt F) :=
  Pipeline.withArrays spec0 c (V12 m c) fun w => (dat0 (Vin0 m) c).arrAt w cfg0.N
def outsA : Outs (F := F) := fun _ r c => Wout0 m c r
abbrev Vin1 (c : Dev nD) (b : Ref sig .tc) : Buf (Elt F) ((c : Thread nD τ).loc b) := V19 m (outsA m) c b
def Wout1 (c : Dev nD) : Valuation τ sig (Elt F) :=
  Pipeline.withArrays spec1 c (V19 m (outsA m) c) fun w => (dat1 (Vin1 m) c).arrAt w cfg1.N
def outs : Outs (F := F) := fun J r c => if J = 13 then Wout0 m c r else Wout1 m c r

theorem out0 (c : Dev nD) : outs m 13 main_v13 c = (dat0 (Vin0 m) c).arrAt 7 cfg0.N :=
  Pipeline.withArrays_arr spec0 launch0.win.arr_inj c (V12 m c) (fun w => (dat0 (Vin0 m) c).arrAt w cfg0.N) 7
theorem out1 (c : Dev nD) : outs m 20 main_v23 c = (dat1 (Vin1 m) c).arrAt 4 cfg1.N :=
  Pipeline.withArrays_arr spec1 launch1.win.arr_inj c (V19 m (outsA m) c) (fun w => (dat1 (Vin1 m) c).arrAt w cfg1.N) 4

def pdats : (p : Fin 2) → (c : Dev nD) → Dat τ (Elt F) Unit ℕ (Pipeline.UD sig nD τ) ℕ (cfgs p) c
  | ⟨0, _⟩ => fun c => dat0 (Vin0 m) c
  | ⟨1, _⟩ => fun c => dat1 (Vin1 m) c
theorem pdats_plain : ∀ (p : Fin 2) (c : Dev nD), (∀ w, (pdats m p c).q w = fullShare)
    ∧ (∀ t, (pdats m p c).owed t = 0) ∧ ∀ t, (pdats m p c).recorded t = Set.univ
  | ⟨0, _⟩, _ => ⟨fun _ => rfl, fun _ => rfl, fun _ => rfl⟩
  | ⟨1, _⟩, _ => ⟨fun _ => rfl, fun _ => rfl, fun _ => rfl⟩
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A region takes the valuation Vi to Vi updated at the array of its one output window o. -/
def reg (p : Fin 2) (lf : Pipeline.LaunchFacts (nD := nD) (τ := τ) cfgs p) (o : Fin (cfgs p).W)
    (hio : ∀ w, w ≠ o → ((cfgs p).win w).isOut = false) (Vi : (c : Dev nD) → Valuation τ sig (Elt F))
    (X : (c : Dev nD) → Buf (Elt F) ((c : Thread nD τ).loc (Pipeline.arrRef (cfgs p).spec o)))
    (hX : ∀ c, X c = (pdats m p c).arrAt o (cfgs p).N)
    (hb : ∀ c, BodyObligation (pdats m p c) (defs₀ (F := F)) Variants.none () Set.univ)
    (hA : ∀ c w, (pdats m p c).A w = Vi c (Pipeline.arrRef (cfgs p).spec w))
    (hi : ∀ c, Pipeline.ΦA (cfgs p).spec c ⊢ (pdats m p c).Φ 0)
    (ho : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.1
  pre c := iprop(StableHlo.held (c : Thread nD τ) (Pipeline.ucRefs τ sig) (Vi c) ∗ R c)
  post c := iprop(StableHlo.held (c : Thread nD τ) (Pipeline.ucRefs τ sig)
    (Function.update (Vi c) (Proc.devRef .tc (Pipeline.arrRef (cfgs p).spec o)) (X c)) ∗ R c)
  X c := iprop(∃ r, prngReg c r)
  Y c := iprop(∃ r, prngReg c r)
  Z c := Pipeline.unscopedRest (cfgs p).spec c fun b => Vi c b
  hentry c := by
    obtain ⟨hq, hw, hrec⟩ := pdats_plain m p c
    have hsplit := Pipeline.arrays_of_unscopedBufs (p := p) (pcfgs (F := F)) adm (pdats m) lf.win lf.arr_whole c
      ((pdats m p c).share_full hq) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [hw, hrec]
      icases HO with ⟨%W, HO⟩; iexists W; isplitr; · ipureintro; exact fun _ _ => Or.inl trivial
      iexact HO
    isplitl [Hp]; · iexact Hp
    iexact Hrest
  hin c := by
    have h := hi c
    unfold Pipeline.ΦA at h
    iintro ⟨Hp, -, Hr⟩
    iapply h
    isplitl [Hr]; · iexact Hr
    iexact Hp
  hout c := by
    rw [Pipeline.ownSems0_none]
    have h := ho c
    unfold Pipeline.ΦA at h
    iintro HΦ
    ihave H := h $$ HΦ
    icases H with ⟨Hr, Hp⟩
    isplitl [Hp]; · iexact Hp
    isplitr; · iempintro
    iexact Hr
  hexit c := by
    obtain ⟨hq, hw, -⟩ := pdats_plain m p c
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full hq) (fun b => Vi c b)
      (fun b => Function.update (Vi c) (Proc.devRef .tc (Pipeline.arrRef (cfgs p).spec o)) (X c) b) ((pdats m p c).arrAt · (cfgs p).N)
      (fun w => by
        by_cases h : w = o
        · subst h; exact ((Function.update_self (Proc.devRef (τ := τ) .tc (Pipeline.arrRef (cfgs p).spec w)) (X c) (Vi c)).trans (hX c)).symm
        · rw [Function.update_of_ne fun e => h (lf.win.arr_inj (Proc.devRef_injective _ e))]
          exact ((pdats m p c).arrAt_in w (hio w h) _).trans (hA c w))
      (fun b hb => Function.update_of_ne (fun e => hb (Finset.mem_image.mpr ⟨o, Finset.mem_univ _, (Proc.devRef_injective _ e).symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hw]
    icases HO with ⟨%W, -, HO⟩; iexists W; iexact HO

abbrev u₀ : Pipeline.UD sig nD τ := (initOf (Pipeline.cells cfgs cellOf_inj) (Pipeline.launchToks cfgs cellOf_inj), 1)

theorem hu₀ : (ownU (u₀ : Pipeline.UD sig nD τ) : sProp 𝕄)
    ⊢ |={Set.univ}=> iprop(BI.own (embL (u₀ : Pipeline.UD sig nD τ).1) ∗ bigSep Finset.univ fun _ : Dev nD => (BI.emp : sProp 𝕄)) := by
  rw [BI.bigSep_emp_const]
  iintro Hu
  ihave H := (ownU_pair _ _) $$ Hu
  icases H with ⟨HP, -⟩
  imodintro
  isplitl [HP]; · iexact HP
  iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run of @main ends with every buffer at the last valuation of the fold through its items, which has every argument as launched. -/
theorem run : θ_run defs (onTc (τ := τ) (main (F := F))) ⟨m, fun _ => 0, ρ⟩ (fun r => ∀ c : Dev nD,
      r.2.mem ((c.tc : Thread nD τ).loc main_v26) = V21 m (outs m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj embL defs₀ 𝒱₀ L lv m ρ main
    (segs m (outs m) 𝒱₀ L lv (fun _ c => R c) () (pdats m)
      (reg m 0 launch0 7 (by decide) (V12 m) (fun c => outs m 13 main_v13 c) (out0 m) (body_obligation0 (Vin0 m)) (A_eq0 (Vin0 m)) (hin0 (Vin0 m)) (hout0 (Vin0 m)))
      (reg m 1 launch1 4 (by decide) (V19 m (outs m)) (fun c => outs m 20 main_v23 c) (out1 m) (body_obligation1 (Vin1 m)) (A_eq1 (Vin1 m)) (hin1 (Vin1 m)) (hout1 (Vin1 m))))
    (fun c Q => by rewrite [main_chain c, Pipeline.Seg.run_eq_chain]; exact .rfl)
    (fun c => by simp only [segs, Pipeline.Seg.pipes_host, Pipeline.Seg.pipes_region, Pipeline.Seg.pipes_nil]; decide) 0 (fun _ _ => rfl) (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V21 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, sep_mono .rfl sep_elim_right⟩)
    (hinit := ?_) (QY := fun c s => ∀ b ∈ Pipeline.ucRefs τ sig, s.mem (((c : Thread nD τ)).1, b) = V21 m (outs m) c b)
    (hfin := fun c s' => ?_)
    (hQ := fun _ h c => have rd b hb := h c _ (mem_uc b hb)
      ⟨rd main_v26 (by decide), (rd main_arg0 (by decide)).trans (V21_main_arg0 m _ c), (rd main_arg1 (by decide)).trans (V21_main_arg1 m _ c), (rd main_arg2 (by decide)).trans (V21_main_arg2 m _ c),
      (rd main_arg3 (by decide)).trans (V21_main_arg3 m _ c), (rd main_arg4 (by decide)).trans (V21_main_arg4 m _ c), (rd main_arg5 (by decide)).trans (V21_main_arg5 m _ c),
      (rd main_arg6 (by decide)).trans (V21_main_arg6 m _ c), (rd main_arg7 (by decide)).trans (V21_main_arg7 m _ c), (rd main_arg8 (by decide)).trans (V21_main_arg8 m _ c),
      (rd main_arg9 (by decide)).trans (V21_main_arg9 m _ c)⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V21 m (outs m) c) s')
    isplitl [Hh] <;> iassumption

end Cert.KernelIdeal.Fr

end
-- ==== Proof.Val.Spec.lean ====
import Idealize.ShloMosaic.PureOps.Ideal
import Idealize.ShloMosaic.Lib.ValueIdx

noncomputable section

open scoped BigOperators

namespace Cert.Val

open Idealize.ShloMosaic Idealize.ShloMosaic.ValueIdx

abbrev S8192x4096 : Shape := ⟨2, ![8192, 4096]⟩
abbrev S4096x1376 : Shape := ⟨2, ![4096, 1376]⟩
abbrev S32x11008 : Shape := ⟨2, ![32, 11008]⟩
abbrev S32x1376 : Shape := ⟨2, ![32, 1376]⟩
abbrev S11008x512 : Shape := ⟨2, ![11008, 512]⟩
abbrev S86x4096 : Shape := ⟨2, ![86, 4096]⟩
abbrev S86x512 : Shape := ⟨2, ![86, 512]⟩
abbrev S4096x11008 : Shape := ⟨2, ![4096, 11008]⟩
abbrev S11008x4096 : Shape := ⟨2, ![11008, 4096]⟩
abbrev S8192x11008 : Shape := ⟨2, ![8192, 11008]⟩

def nib (w : BitVec 32) (s : Fin 8) : EReal :=
  FloatOps.sitofp (F := Ideal) .f32 (IntOp.andi (w.sshiftRight' (BitVec.ofNat 32 (4 * s.val))) 15#32)

def deq (q z sc : EReal) : EReal := (q - z) * sc

def gate (a b : EReal) : EReal := (a * Ideal.logistic a) * b

theorem muli_lane_four (s : Fin 8) : IntOp.muli (BitVec.ofNat 32 s.val) 4#32 = BitVec.ofNat 32 (4 * s.val) := by
  rw [IntOp.muli, Nat.mul_comm]; exact (BitVec.ofNat_mul (n := 32) s.val 4).symm

theorem nib_eq (u : ArithUnit) (w : BitVec 32) (s : Fin 8) :
    FloatOps.sitofp (F := Ideal) .f32 (IntOp.andi (IntOp.shrsi u w (BitVec.ofNat 32 (4 * s.val))) 15#32) = nib w s := by
  have h : (BitVec.ofNat 32 (4 * s.val)).toNat < 32 := by
    have := s.isLt
    rw [BitVec.toNat_ofNat, Nat.mod_eq_of_lt (by omega)]; omega
  rw [IntOp.shrsi, if_pos h]; rfl

abbrev grpA (k : Fin 4096) : Fin 32 := ⟨k.val / 128, by have := k.isLt; omega⟩

abbrev grpB (k : Fin 11008) : Fin 86 := ⟨k.val / 128, by have := k.isLt; omega⟩

abbrev wordA (j : Fin 11008) : Fin 1376 := ⟨j.val / 8, by have := j.isLt; omega⟩

abbrev wordB (j : Fin 4096) : Fin 512 := ⟨j.val / 8, by have := j.isLt; omega⟩

abbrev lane {n : Nat} (j : Fin n) : Fin 8 := ⟨j.val % 8, Nat.mod_lt _ (by decide)⟩

def WnatA (qw : IVec S4096x1376 32) (sc : FVec Ideal S32x11008 .f32) (qz : IVec S32x1376 32) :
    S4096x11008.Idx → EReal := fun i =>
  deq (nib (qw (ix2 (i 0) (wordA (i 1)))) (lane (i 1))) (nib (qz (ix2 (grpA (i 0)) (wordA (i 1)))) (lane (i 1)))
    (sc (ix2 (grpA (i 0)) (i 1)))

def WnatB (qw : IVec S11008x512 32) (sc : FVec Ideal S86x4096 .f32) (qz : IVec S86x512 32) :
    S11008x4096.Idx → EReal := fun i =>
  deq (nib (qw (ix2 (i 0) (wordB (i 1)))) (lane (i 1))) (nib (qz (ix2 (grpB (i 0)) (wordB (i 1)))) (lane (i 1)))
    (sc (ix2 (grpB (i 0)) (i 1)))

theorem WnatA_ix2 (qw : IVec S4096x1376 32) (sc : FVec Ideal S32x11008 .f32) (qz : IVec S32x1376 32)
    (k : Fin 4096) (j : Fin 11008) :
    WnatA qw sc qz (ix2 k j) =
      deq (nib (qw (ix2 k (wordA j))) (lane j)) (nib (qz (ix2 (grpA k) (wordA j))) (lane j)) (sc (ix2 (grpA k) j)) := rfl

theorem WnatB_ix2 (qw : IVec S11008x512 32) (sc : FVec Ideal S86x4096 .f32) (qz : IVec S86x512 32)
    (k : Fin 11008) (j : Fin 4096) :
    WnatB qw sc qz (ix2 k j) =
      deq (nib (qw (ix2 k (wordB j))) (lane j)) (nib (qz (ix2 (grpB k) (wordB j))) (lane j)) (sc (ix2 (grpB k) j)) := rfl

def Hnat (x : FVec Ideal S8192x4096 .f32)
    (gqw : IVec S4096x1376 32) (gsc : FVec Ideal S32x11008 .f32) (gqz : IVec S32x1376 32)
    (uqw : IVec S4096x1376 32) (usc : FVec Ideal S32x11008 .f32) (uqz : IVec S32x1376 32) :
    S8192x11008.Idx → EReal := fun i =>
  gate (∑ k : Fin 4096, x (ix2 (i 0) k) * WnatA gqw gsc gqz (ix2 k (i 1)))
    (∑ k : Fin 4096, x (ix2 (i 0) k) * WnatA uqw usc uqz (ix2 k (i 1)))

theorem Hnat_ix2 (x : FVec Ideal S8192x4096 .f32)
    (gqw : IVec S4096x1376 32) (gsc : FVec Ideal S32x11008 .f32) (gqz : IVec S32x1376 32)
    (uqw : IVec S4096x1376 32) (usc : FVec Ideal S32x11008 .f32) (uqz : IVec S32x1376 32)
    (m : Fin 8192) (j : Fin 11008) :
    Hnat x gqw gsc gqz uqw usc uqz (ix2 m j) =
      gate (∑ k : Fin 4096, x (ix2 m k) * WnatA gqw gsc gqz (ix2 k j))
        (∑ k : Fin 4096, x (ix2 m k) * WnatA uqw usc uqz (ix2 k j)) := rfl

def Onat (x : FVec Ideal S8192x4096 .f32)
    (gqw : IVec S4096x1376 32) (gsc : FVec Ideal S32x11008 .f32) (gqz : IVec S32x1376 32)
    (uqw : IVec S4096x1376 32) (usc : FVec Ideal S32x11008 .f32) (uqz : IVec S32x1376 32)
    (dqw : IVec S11008x512 32) (dsc : FVec Ideal S86x4096 .f32) (dqz : IVec S86x512 32) :
    S8192x4096.Idx → EReal := fun i =>
  ∑ j : Fin 11008, Hnat x gqw gsc gqz uqw usc uqz (ix2 (i 0) j) * WnatB dqw dsc dqz (ix2 j (i 1))

theorem Onat_ix2 (x : FVec Ideal S8192x4096 .f32)
    (gqw : IVec S4096x1376 32) (gsc : FVec Ideal S32x11008 .f32) (gqz : IVec S32x1376 32)
    (uqw : IVec S4096x1376 32) (usc : FVec Ideal S32x11008 .f32) (uqz : IVec S32x1376 32)
    (dqw : IVec S11008x512 32) (dsc : FVec Ideal S86x4096 .f32) (dqz : IVec S86x512 32)
    (m : Fin 8192) (n : Fin 4096) :
    Onat x gqw gsc gqz uqw usc uqz dqw dsc dqz (ix2 m n) =
      ∑ j : Fin 11008, Hnat x gqw gsc gqz uqw usc uqz (ix2 m j) * WnatB dqw dsc dqz (ix2 j n) := rfl

end Cert.Val

end
-- ==== Proof.Val.RefWA.lean ====
import proofs.«429270_j84954453115513_3_alg».proof.Proof.Gen.ReferenceIdeal.Read
import proofs.«429270_j84954453115513_3_alg».proof.Proof.Val.Spec
import Idealize.ShloMosaic.Lib.ValueIdxCoords

namespace Cert.Val

open Idealize.ShloMosaic Idealize.ShloMosaic.ValueIdx
open Cert.ReferenceIdeal.Read

private theorem ix2_of {n0 n1 : ℕ} {i : (⟨2, ![n0, n1]⟩ : Shape).Idx} {a : Fin n0} {b : Fin n1}
    (h0 : (i 0).val = a.val) (h1 : (i 1).val = b.val) : i = ix2 a b :=
  (eq_ix2 i).trans (congrArg₂ ix2 (Fin.ext h0) (Fin.ext h1))

-- Entry (k, j) of the flattened weight reads field j % 8 of word (k, j / 8) and of zero-point word (k / 128, j / 8), and scale (k / 128, j).
theorem gate_idx (k : Fin 4096) (j : Fin 11008) :
    idx_main_v3 (idx_main_v5 (idx_main_v10 (idx_main_v24 (idx_main_v31 (ix2 k j))))) = ix2 k (wordA j) ∧
    (idx_main_v4 (idx_main_v6 (idx_main_v10 (idx_main_v24 (idx_main_v31 (ix2 k j))))) 0).val = (lane j).val ∧
    idx_main_v15 (idx_main_v17 (idx_main_v22 (idx_main_v25 (idx_main_v26 (idx_main_v31 (ix2 k j)))))) = ix2 (grpA k) (wordA j) ∧
    (idx_main_v16 (idx_main_v18 (idx_main_v22 (idx_main_v25 (idx_main_v26 (idx_main_v31 (ix2 k j)))))) 0).val = (lane j).val ∧
    idx_main_v28 (idx_main_v29 (idx_main_v31 (ix2 k j))) = ix2 (grpA k) j := by
  have := k.isLt; have := j.isLt
  refine ⟨ix2_of ?_ ?_, ?_, ix2_of ?_ ?_, ?_, ix2_of ?_ ?_⟩ <;>
    dsimp only [idx_main_v3, idx_main_v4, idx_main_v5, idx_main_v6, idx_main_v10, idx_main_v15, idx_main_v16, idx_main_v17,
      idx_main_v18, idx_main_v22, idx_main_v24, idx_main_v25, idx_main_v26, idx_main_v28, idx_main_v29, idx_main_v31, ix2_0, ix2_1] <;>
    omega

theorem ref_gate_weight (qw : IVec S4096x1376 32) (sc : FVec Ideal S32x11008 .f32) (qz : IVec S32x1376 32) :
    val_main_v31 (F := Ideal) qw sc qz = WnatA qw sc qz := by
  funext i
  obtain ⟨k, j, rfl⟩ : ∃ (k : Fin 4096) (j : Fin 11008), i = ix2 k j := ⟨i 0, i 1, eq_ix2 i⟩
  obtain ⟨h1, h2, h3, h4, h5⟩ := gate_idx k j
  rw [WnatA_ix2, val_main_v31_apply, val_main_v30_apply, val_main_v27_apply, val_main_v24_apply, val_main_v11_apply,
    val_main_v10_apply, val_main_v9_apply, val_main_v7_apply, val_main_v5_apply, val_main_v3_apply, val_main_v6_apply,
    val_main_v4_apply, val_main_v2_apply, val_main_v0_apply, val_main_v1_apply, val_main_c_apply, val_main_v8_apply,
    val_main_c_0_apply, val_main_v26_apply, val_main_v25_apply, val_main_v23_apply, val_main_v22_apply,
    val_main_v21_apply, val_main_v19_apply, val_main_v17_apply, val_main_v15_apply, val_main_v18_apply,
    val_main_v16_apply, val_main_v14_apply, val_main_v12_apply, val_main_v13_apply, val_main_c_1_apply,
    val_main_v20_apply, val_main_c_2_apply, val_main_v29_apply, val_main_v28_apply,
    h1, h2, h3, h4, h5, muli_lane_four, nib_eq, nib_eq]
  rfl

-- The up weight is computed by the same operations on the same shapes.
theorem ref_up_weight (qw : IVec S4096x1376 32) (sc : FVec Ideal S32x11008 .f32) (qz : IVec S32x1376 32) :
    val_main_v63 (F := Ideal) qw sc qz = WnatA qw sc qz :=
  ref_gate_weight qw sc qz

end Cert.Val
-- ==== Proof.Val.RefWB.lean ====
import proofs.«429270_j84954453115513_3_alg».proof.Proof.Gen.ReferenceIdeal.Read
import proofs.«429270_j84954453115513_3_alg».proof.Proof.Val.Spec
import Idealize.ShloMosaic.Lib.ValueIdxCoords

namespace Cert.Val

open Idealize.ShloMosaic Idealize.ShloMosaic.ValueIdx
open Cert.ReferenceIdeal.Read

private theorem ix2_of {n0 n1 : ℕ} {i : (⟨2, ![n0, n1]⟩ : Shape).Idx} {a : Fin n0} {b : Fin n1}
    (h0 : (i 0).val = a.val) (h1 : (i 1).val = b.val) : i = ix2 a b :=
  (eq_ix2 i).trans (congrArg₂ ix2 (Fin.ext h0) (Fin.ext h1))

-- Entry (k, j) of the flattened weight reads field j % 8 of word (k, j / 8) and of zero-point word (k / 128, j / 8), and scale (k / 128, j).
theorem down_idx (k : Fin 11008) (j : Fin 4096) :
    idx_main_v67 (idx_main_v69 (idx_main_v74 (idx_main_v88 (idx_main_v95 (ix2 k j))))) = ix2 k (wordB j) ∧
    (idx_main_v68 (idx_main_v70 (idx_main_v74 (idx_main_v88 (idx_main_v95 (ix2 k j))))) 0).val = (lane j).val ∧
    idx_main_v79 (idx_main_v81 (idx_main_v86 (idx_main_v89 (idx_main_v90 (idx_main_v95 (ix2 k j)))))) = ix2 (grpB k) (wordB j) ∧
    (idx_main_v80 (idx_main_v82 (idx_main_v86 (idx_main_v89 (idx_main_v90 (idx_main_v95 (ix2 k j)))))) 0).val = (lane j).val ∧
    idx_main_v92 (idx_main_v93 (idx_main_v95 (ix2 k j))) = ix2 (grpB k) j := by
  have := k.isLt; have := j.isLt
  refine ⟨ix2_of ?_ ?_, ?_, ix2_of ?_ ?_, ?_, ix2_of ?_ ?_⟩ <;>
    dsimp only [idx_main_v67, idx_main_v68, idx_main_v69, idx_main_v70, idx_main_v74, idx_main_v79, idx_main_v80, idx_main_v81,
      idx_main_v82, idx_main_v86, idx_main_v88, idx_main_v89, idx_main_v90, idx_main_v92, idx_main_v93, idx_main_v95, ix2_0, ix2_1] <;>
    omega

theorem ref_down_weight (qw : IVec S11008x512 32) (sc : FVec Ideal S86x4096 .f32) (qz : IVec S86x512 32) :
    val_main_v95 (F := Ideal) qw sc qz = WnatB qw sc qz := by
  funext i
  obtain ⟨k, j, rfl⟩ : ∃ (k : Fin 11008) (j : Fin 4096), i = ix2 k j := ⟨i 0, i 1, eq_ix2 i⟩
  obtain ⟨h1, h2, h3, h4, h5⟩ := down_idx k j
  rw [WnatB_ix2, val_main_v95_apply, val_main_v94_apply, val_main_v91_apply, val_main_v88_apply, val_main_v75_apply,
    val_main_v74_apply, val_main_v73_apply, val_main_v71_apply, val_main_v69_apply, val_main_v67_apply,
    val_main_v70_apply, val_main_v68_apply, val_main_v66_apply, val_main_v64_apply, val_main_v65_apply,
    val_main_c_7_apply, val_main_v72_apply, val_main_c_8_apply, val_main_v90_apply, val_main_v89_apply,
    val_main_v87_apply, val_main_v86_apply, val_main_v85_apply, val_main_v83_apply, val_main_v81_apply,
    val_main_v79_apply, val_main_v82_apply, val_main_v80_apply, val_main_v78_apply, val_main_v76_apply,
    val_main_v77_apply, val_main_c_9_apply, val_main_v84_apply, val_main_c_10_apply, val_main_v93_apply,
    val_main_v92_apply,
    h1, h2, h3, h4, h5, muli_lane_four, nib_eq, nib_eq]
  rfl

end Cert.Val
-- ==== Proof.Val.Ref.lean ====
import proofs.«429270_j84954453115513_3_alg».proof.Proof.Val.RefWA
import proofs.«429270_j84954453115513_3_alg».proof.Proof.Val.RefWB

open scoped BigOperators

namespace Cert.Val

open Idealize.ShloMosaic Idealize.ShloMosaic.ValueIdx
open Cert.ReferenceIdeal.Read

theorem one_word : Ideal.ofBits .f32 0x3F800000#32 = 1 := by
  simp [Ideal.ofBits, Ideal.ieee, -EReal.coe_mul]; norm_num

variable (x : FVec Ideal S8192x4096 .f32) (gqw uqw : IVec S4096x1376 32) (gsc usc : FVec Ideal S32x11008 .f32)
  (gqz uqz : IVec S32x1376 32) (dqw : IVec S11008x512 32) (dsc : FVec Ideal S86x4096 .f32) (dqz : IVec S86x512 32)

-- Entry (m, j) of x · W; the up product is the same function of its own arguments.
theorem ref_dot (m : Fin 8192) (j : Fin 11008) :
    val_main_v96 (F := Ideal) x gqw gsc gqz (ix2 m j) = ∑ k : Fin 4096, x (ix2 m k) * WnatA gqw gsc gqz (ix2 k j) := by
  rw [val_main_v96_apply, ref_gate_weight]
  exact Finset.sum_congr rfl fun k _ => by congr 2 <;> exact eq_ix2 _

-- The reference spells silu a as a * (1 / (1 + exp (-a))), which is a * logistic a.
theorem ref_hidden : val_main_v99 (F := Ideal) x gqw gsc gqz uqw usc uqz = Hnat x gqw gsc gqz uqw usc uqz := by
  funext i
  obtain ⟨m, j, rfl⟩ : ∃ (m : Fin 8192) (j : Fin 11008), i = ix2 m j := ⟨i 0, i 1, eq_ix2 i⟩
  rw [Hnat_ix2, val_main_v99_apply, val_main_v97_apply, val_main_call0_v5_apply, val_main_call0_v4_apply,
    val_main_call0_cst_0_apply, val_main_call0_v3_apply, val_main_call0_v2_apply, val_main_call0_cst_apply,
    val_main_call0_v1_apply, val_main_call0_v0_apply, ref_dot,
    show val_main_v98 (F := Ideal) x uqw usc uqz (ix2 m j) = _ from ref_dot x uqw usc uqz m j]
  simp only [Ideal.ofBits_def, Ideal.mulf_def, Ideal.addf_def, Ideal.hostDivf_def, Ideal.hostUnary_exp_def,
    Ideal.hostNegf_def, Ideal.negf_def, one_word]
  rfl

theorem ref_eq :
    val_main_v100 (F := Ideal) x gqw gsc gqz uqw usc uqz dqw dsc dqz = Onat x gqw gsc gqz uqw usc uqz dqw dsc dqz := by
  funext i
  obtain ⟨m, n, rfl⟩ : ∃ (m : Fin 8192) (n : Fin 4096), i = ix2 m n := ⟨i 0, i 1, eq_ix2 i⟩
  rw [Onat_ix2, val_main_v100_apply, ref_hidden, ref_down_weight]
  exact Finset.sum_congr rfl fun j _ => by congr 2 <;> exact eq_ix2 _

open Cert.ReferenceIdeal Idealize.ShloMosaic.TcCoe Idealize.SL.Sem in
theorem ref_result (m : (ℓ : Loc nD τ sig) → Buf (Elt Ideal) ℓ) (c : Dev nD) :
    Cert.ReferenceIdeal.Value.res_main_v100 m c =
      Onat (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  rw [val_main_v100_eq]
  exact ref_eq _ _ _ _ _ _ _ _ _ _

end Cert.Val
-- ==== Proof.Val.AlgSum.lean ====
import Idealize.ShloMosaic.PureOps.Ideal
import Idealize.ShloMosaic.Lib.ValueIdx
import Mathlib.Algebra.BigOperators.Fin
import Mathlib.Data.Fintype.BigOperators
import Mathlib.Logic.Equiv.Fin.Basic

open scoped BigOperators

namespace Cert.Val

variable {α : Type*} [AddCommMonoid α]

-- the sum splits at M and the upper part is a sum of zeros
theorem sum_fin_of_vanish {M N : ℕ} (hMN : M ≤ N) (f : Fin N → α)
    (h : ∀ j : Fin N, M ≤ j.val → f j = 0) :
    ∑ j, f j = ∑ j : Fin M, f (Fin.castLE hMN j) := by
  obtain ⟨K, rfl⟩ := Nat.exists_eq_add_of_le hMN
  rw [Fin.sum_univ_add, Finset.sum_eq_zero (fun i _ => h (Fin.natAdd M i) (Nat.le_add_right M i)), add_zero]
  rfl

theorem sum_256_split (g : Fin 256 → α) :
    ∑ q, g q = ∑ r : Fin 128, g ⟨r.val, by have := r.isLt; omega⟩
      + ∑ r : Fin 128, g ⟨128 + r.val, by have := r.isLt; omega⟩ :=
  Fin.sum_univ_add (a := 128) (b := 128) g

theorem add_four_chunks (a : α) (c : Fin 4 → α) : a + c 0 + c 1 + c 2 + c 3 = a + ∑ i, c i := by
  rw [Fin.sum_univ_four, add_assoc, add_assoc, add_assoc, ← add_assoc (c 0), ← add_assoc (c 0 + c 1)]

end Cert.Val
-- ==== Proof.Val.LibConcat.lean ====
import Idealize.ShloMosaic.Lib.ValueLayout
import Idealize.ShloMosaic.Lib.Pipeline.Value

noncomputable section

namespace Cert.Val

open Idealize.ShloMosaic Idealize.ShloMosaic.ValueIdx

theorem readCov_cons_unit_zero {Val : EltTy → Type} [∀ e, Nonempty (Val e)] {S : Shape} {e : EltTy}
    {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

-- eight equal pieces side by side: column cc lies in piece cc / 128, at column cc % 128 of it
theorem concat8_cols_apply {α : Type} {R : ℕ}
    (f0 f1 f2 f3 f4 f5 f6 f7 : (⟨2, ![R, 128]⟩ : Shape).Idx → α)
    (h : Shape.Concatenates [(⟨2, ![R, 128]⟩ : Shape), (⟨2, ![R, 128]⟩ : Shape), (⟨2, ![R, 128]⟩ : Shape), (⟨2, ![R, 128]⟩ : Shape), (⟨2, ![R, 128]⟩ : Shape), (⟨2, ![R, 128]⟩ : Shape), (⟨2, ![R, 128]⟩ : Shape), (⟨2, ![R, 128]⟩ : Shape)] (⟨2, ![R, 1024]⟩ : Shape) 1)
    (t : Fin R) (cc : Fin 1024) :
    concatenate (⟨2, ![R, 1024]⟩ : Shape) 1 [⟨(⟨2, ![R, 128]⟩ : Shape), f0⟩, ⟨(⟨2, ![R, 128]⟩ : Shape), f1⟩, ⟨(⟨2, ![R, 128]⟩ : Shape), f2⟩, ⟨(⟨2, ![R, 128]⟩ : Shape), f3⟩, ⟨(⟨2, ![R, 128]⟩ : Shape), f4⟩, ⟨(⟨2, ![R, 128]⟩ : Shape), f5⟩, ⟨(⟨2, ![R, 128]⟩ : Shape), f6⟩, ⟨(⟨2, ![R, 128]⟩ : Shape), f7⟩] h (ix2 t cc)
      = (![f0, f1, f2, f3, f4, f5, f6, f7] ⟨cc.val / 128, by have := cc.isLt; omega⟩)
          (ix2 t ⟨cc.val % 128, Nat.mod_lt _ (by decide)⟩) :=
  concatenate_ofFn_apply (t := (⟨2, ![R, 1024]⟩ : Shape)) (s₁ := (⟨2, ![R, 128]⟩ : Shape)) (1 : Fin 2) ![f0, f1, f2, f3, f4, f5, f6, f7] h rfl
    128 rfl (ix2 t cc) ⟨cc.val / 128, by have := cc.isLt; omega⟩ rfl (ix2 t ⟨cc.val % 128, Nat.mod_lt _ (by decide)⟩) rfl
    (fun b hb => by
      match b with
      | ⟨0, _⟩ => rfl
      | ⟨1, _⟩ => exact absurd rfl hb)

theorem concat2_rows_lo {α : Type} {C : ℕ} (A B : (⟨2, ![128, C]⟩ : Shape).Idx → α)
    (h : Shape.Concatenates [(⟨2, ![128, C]⟩ : Shape), (⟨2, ![128, C]⟩ : Shape)] (⟨2, ![256, C]⟩ : Shape) 0) (t : Fin 128) (cc : Fin C) :
    concatenate (⟨2, ![256, C]⟩ : Shape) 0 [⟨(⟨2, ![128, C]⟩ : Shape), A⟩, ⟨(⟨2, ![128, C]⟩ : Shape), B⟩] h
        (ix2 (⟨t.val, by have := t.isLt; omega⟩ : Fin 256) cc) = A (ix2 t cc) :=
  concatenate_pair_apply_left (t := (⟨2, ![256, C]⟩ : Shape)) (0 : Fin 2) A B h _ rfl (ix2 t cc) (fun b => by
    match b with
    | ⟨0, _⟩ => rfl
    | ⟨1, _⟩ => rfl)

theorem concat2_rows_hi {α : Type} {C : ℕ} (A B : (⟨2, ![128, C]⟩ : Shape).Idx → α)
    (h : Shape.Concatenates [(⟨2, ![128, C]⟩ : Shape), (⟨2, ![128, C]⟩ : Shape)] (⟨2, ![256, C]⟩ : Shape) 0) (t : Fin 128) (cc : Fin C) :
    concatenate (⟨2, ![256, C]⟩ : Shape) 0 [⟨(⟨2, ![128, C]⟩ : Shape), A⟩, ⟨(⟨2, ![128, C]⟩ : Shape), B⟩] h
        (ix2 (⟨128 + t.val, by have := t.isLt; omega⟩ : Fin 256) cc) = B (ix2 t cc) :=
  concatenate_pair_apply_right (t := (⟨2, ![256, C]⟩ : Shape)) (0 : Fin 2) A B h _ rfl rfl (ix2 t cc) (fun b hb => by
    match b with
    | ⟨0, _⟩ => exact absurd rfl hb
    | ⟨1, _⟩ => rfl) (by show t.val + 128 = 128 + t.val; omega)

end Cert.Val

end
-- ==== Proof.Val.DeqBlock.lean ====
import proofs.«429270_j84954453115513_3_alg».proof.Proof.Gen.KernelIdeal
import proofs.«429270_j84954453115513_3_alg».proof.Proof.Val.Spec
import proofs.«429270_j84954453115513_3_alg».proof.Proof.Val.AlgSum
import proofs.«429270_j84954453115513_3_alg».proof.Proof.Val.LibConcat
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Val

open Cert.KernelIdeal Cert.KernelIdeal.Gen
open Idealize.ShloMosaic Idealize.ShloMosaic.ValueIdx

abbrev colWord (cc : Fin 1024) : Fin 128 := ⟨cc.val % 128, Nat.mod_lt _ (by decide)⟩
abbrev colLane (cc : Fin 1024) : Fin 8 := ⟨cc.val / 128, by have := cc.isLt; omega⟩

section Forms
variable {F : FTy → Type} [FloatOps F]

def nibPlane {S : Shape} (q : IVec S 32) (k : BitVec 32) : FVec F S .f32 :=
  sitofp .f32 (andi (shrsi q (broadcast S k)) (broadcast S 15#32))

-- The eight fields of R rows of words, side by side: column cc is field cc / 128 of word cc % 128.
def unpack0 {R : ℕ} (q : IVec ⟨2, ![R, 128]⟩ 32)
    (h : Shape.Concatenates (List.replicate 8 ⟨2, ![R, 128]⟩) ⟨2, ![R, 1024]⟩ 1) : FVec F ⟨2, ![R, 1024]⟩ .f32 :=
  concatenate ⟨2, ![R, 1024]⟩ 1 [⟨_, nibPlane q 0#32⟩, ⟨_, nibPlane q 4#32⟩, ⟨_, nibPlane q 8#32⟩, ⟨_, nibPlane q 12#32⟩, ⟨_, nibPlane q 16#32⟩, ⟨_, nibPlane q 20#32⟩, ⟨_, nibPlane q 24#32⟩, ⟨_, nibPlane q 28#32⟩] h

-- One dequantised group of 128 rows: (fields - zero points) * scales, the two rows repeated down the group.
def deqGroup (q : IVec S128x128 32) (z : IVec S1x128 32) (sc : FVec F S1x1024 .f32) : FVec F S128x1024 .bf16 :=
  truncf .bf16 (mulf (subf (unpack0 q concatenates_S128x128_S128x128_S128x128_S128x128_S128x128_S128x128_S128x128_S128x128_S128x1024_d1)
      (broadcastTo S128x1024 (unpack0 z concatenates_S1x128_S1x128_S1x128_S1x128_S1x128_S1x128_S1x128_S1x128_S1x1024_d1) broadcasts_S1x1024_S128x1024))
    (broadcastTo S128x1024 sc broadcasts_S1x1024_S128x1024)) bitsLt_bf16_f32

def chunkProd (xc : FVec F S1024x256 .bf16) (wA wB : FVec F S128x1024 .bf16) : FVec F S1024x1024 .f32 :=
  matmul dot_S1024x256_S256x1024_S1024x1024_1_0_0_1_n_n none xc
    (concatenate S256x1024 0 [⟨S128x1024, wA⟩, ⟨S128x1024, wB⟩] concatenates_S128x1024_S128x1024_S256x1024_d0)
    (constant S1024x1024 .f32 0x00000000#32)

-- One accumulation of a chunk: the product of the slice with the two stacked groups added to the accumulator.
def chunkStep (acc : FVec F S1024x1024 .f32) (xc : FVec F S1024x256 .bf16)
    (qA : IVec S128x128 32) (zA : IVec S1x128 32) (sA : FVec F S1x1024 .f32)
    (qB : IVec S128x128 32) (zB : IVec S1x128 32) (sB : FVec F S1x1024 .f32) : FVec F S1024x1024 .f32 :=
  shapeCast S1024x1024
    (addf acc (chunkProd (shapeCast S1024x256 xc shapeCasts_S1024x256_S1024x256)
      (deqGroup (shapeCast S128x128 qA shapeCasts_S128x128_S128x128)
        (shapeCast S1x128 (shapeCast S128 zA shapeCasts_S1x128_S128) shapeCasts_S128_S1x128)
        (shapeCast S1x1024 (shapeCast S1024 sA shapeCasts_S1x1024_S1024) shapeCasts_S1024_S1x1024))
      (deqGroup (shapeCast S128x128 qB shapeCasts_S128x128_S128x128)
        (shapeCast S1x128 (shapeCast S128 zB shapeCasts_S1x128_S128) shapeCasts_S128_S1x128)
        (shapeCast S1x1024 (shapeCast S1024 sB shapeCasts_S1x1024_S1024) shapeCasts_S1024_S1x1024))))
    shapeCasts_S1024x1024_S1024x1024

end Forms

theorem vec8_nibPlane {S : Shape} (q : IVec S 32) (k : Fin 8) (i : S.Idx) :
    (![nibPlane (F := Ideal) q 0#32, nibPlane (F := Ideal) q 4#32, nibPlane (F := Ideal) q 8#32, nibPlane (F := Ideal) q 12#32, nibPlane (F := Ideal) q 16#32, nibPlane (F := Ideal) q 20#32, nibPlane (F := Ideal) q 24#32, nibPlane (F := Ideal) q 28#32] k) i = nib (q i) k :=
  (show _ = nibPlane (F := Ideal) q (BitVec.ofNat 32 (4 * k.val)) i by fin_cases k <;> rfl).trans (nib_eq .vector (q i) k)

theorem unpack0_apply {R : ℕ} (q : IVec ⟨2, ![R, 128]⟩ 32) (h) (t : Fin R) (cc : Fin 1024) :
    unpack0 (F := Ideal) q h (ix2 t cc) = nib (q (ix2 t (colWord cc))) (colLane cc) :=
  (concat8_cols_apply _ _ _ _ _ _ _ _ h t cc).trans (vec8_nibPlane q (colLane cc) (ix2 t (colWord cc)))

theorem deqGroup_apply (q : IVec S128x128 32) (z : IVec S1x128 32) (sc : FVec Ideal S1x1024 .f32)
    (t : Fin 128) (cc : Fin 1024) :
    deqGroup (F := Ideal) q z sc (ix2 t cc) =
      deq (nib (q (ix2 t (colWord cc))) (colLane cc)) (nib (z (ix2 0 (colWord cc))) (colLane cc)) (sc (ix2 0 cc)) := by
  show (unpack0 (F := Ideal) q _ (ix2 t cc) - broadcastTo S128x1024 (unpack0 (F := Ideal) z _) _ (ix2 t cc))
      * broadcastTo S128x1024 sc _ (ix2 t cc) = _
  rw [unpack0_apply, broadcastTo_1b_ab_apply, broadcastTo_1b_ab_apply, unpack0_apply]
  rfl

-- The product of a [1024, 256] operand with a [256, 1024] one into zero, at an entry: the 256-term sum.
theorem matmul256_apply (xc : FVec Ideal S1024x256 .bf16) (W : FVec Ideal S256x1024 .bf16) (r cc : Fin 1024) :
    matmul dot_S1024x256_S256x1024_S1024x1024_1_0_0_1_n_n none xc W (constant (F := Ideal) S1024x1024 .f32 0x00000000#32) (ix2 r cc)
      = ∑ k : Fin 256, xc (ix2 r k) * W (ix2 k cc) := by
  refine (Ideal.matmul_constant_zero_apply _ none xc W (ix2 r cc)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  congr 2 <;> funext a <;> apply Fin.ext
  · match a with
    | ⟨0, _⟩ => rfl
    | ⟨1, _⟩ => exact hk
  · match a with
    | ⟨0, _⟩ => exact hk
    | ⟨1, _⟩ => rfl

abbrev half0 (t : Fin 128) : Fin 256 := ⟨t.val, by have := t.isLt; omega⟩
abbrev half1 (t : Fin 128) : Fin 256 := ⟨128 + t.val, by have := t.isLt; omega⟩

theorem chunkProd_apply (xc : FVec Ideal S1024x256 .bf16) (wA wB : FVec Ideal S128x1024 .bf16) (r cc : Fin 1024) :
    chunkProd (F := Ideal) xc wA wB (ix2 r cc)
      = ∑ t : Fin 128, xc (ix2 r (half0 t)) * wA (ix2 t cc) + ∑ t : Fin 128, xc (ix2 r (half1 t)) * wB (ix2 t cc) := by
  refine (matmul256_apply xc _ r cc).trans ?_
  rw [sum_256_split]
  congr 1 <;> refine Finset.sum_congr rfl fun t _ => congrArg _ ?_
  · exact concat2_rows_lo wA wB _ t cc
  · exact concat2_rows_hi wA wB _ t cc

-- Entry (r, cc) after one chunk: the accumulator's entry plus the slice's row against the two groups' columns.
theorem chunkStep_apply (acc : FVec Ideal S1024x1024 .f32) (xc : FVec Ideal S1024x256 .bf16)
    (qA : IVec S128x128 32) (zA : IVec S1x128 32) (sA : FVec Ideal S1x1024 .f32)
    (qB : IVec S128x128 32) (zB : IVec S1x128 32) (sB : FVec Ideal S1x1024 .f32) (r cc : Fin 1024) :
    chunkStep (F := Ideal) acc xc qA zA sA qB zB sB (ix2 r cc) =
      acc (ix2 r cc) +
        (∑ t : Fin 128, xc (ix2 r (half0 t)) *
            deq (nib (qA (ix2 t (colWord cc))) (colLane cc)) (nib (zA (ix2 0 (colWord cc))) (colLane cc)) (sA (ix2 0 cc))
          + ∑ t : Fin 128, xc (ix2 r (half1 t)) *
            deq (nib (qB (ix2 t (colWord cc))) (colLane cc)) (nib (zB (ix2 0 (colWord cc))) (colLane cc)) (sB (ix2 0 cc))) := by
  unfold chunkStep
  rw [shapeCast_self, shapeCast_self, shapeCast_self, shapeCast_self, shapeCast_shapeCast, shapeCast_shapeCast,
    shapeCast_shapeCast, shapeCast_shapeCast]
  show acc (ix2 r cc) + chunkProd (F := Ideal) xc (deqGroup qA zA sA) (deqGroup qB zB sB) (ix2 r cc) = _
  rw [chunkProd_apply]
  simp only [deqGroup_apply]

-- A block read through a unit-stride rectangle at offsets off, at local entry (i, j): the block at (off 0 + i, off 1 + j).
theorem ld_unit_ix2 {Val : EltTy → Type} {e : EltTy} {A B a b : Nat} (X : (⟨2, ![A, B]⟩ : Shape).Idx → Val e)
    (off : Fin 2 → Nat) (inb : ∀ ax, off ax + (![a, b] : Fin 2 → Nat) ax ≤ (⟨2, ![A, B]⟩ : Shape).size ax)
    (i : Fin a) (j : Fin b) (i' : Fin A) (j' : Fin B) (h0 : off 0 + i.val = i'.val) (h1 : off 1 + j.val = j'.val) :
    View.ld X (Rect.unit (s := (⟨2, ![A, B]⟩ : Shape)) off ![a, b] inb) (ix2 i j) = X (ix2 i' j') := by
  show X _ = X _
  congr 1
  funext ax
  apply Fin.ext
  match ax with
  | ⟨0, _⟩ => show off 0 + 1 * i.val = i'.val; omega
  | ⟨1, _⟩ => show off 1 + 1 * j.val = j'.val; omega

end Cert.Val

end
-- ==== Proof.Val.Reg0Pay.lean ====
import proofs.«429270_j84954453115513_3_alg».proof.Proof.Gen.KernelIdeal.Skeleton
import proofs.«429270_j84954453115513_3_alg».proof.Proof.Val.DeqBlock

noncomputable section

namespace Cert.Val

open Cert.KernelIdeal Cert.KernelIdeal.Gen
open Idealize.ShloMosaic

theorem pay2_zero : k0_pay2 (F := Ideal) = fun _ => (0 : EReal) :=
  funext fun _ => Ideal.ofBits_zero_f32

theorem pay3_zero : k0_pay3 (F := Ideal) = fun _ => (0 : EReal) := pay2_zero

end Cert.Val

end
-- ==== Proof.Val.KSpec.lean ====
import proofs.«429270_j84954453115513_3_alg».proof.Proof.Val.Spec
import Idealize.ShloMosaic.Lib.ValueIdx

noncomputable section

open scoped BigOperators

namespace Cert.Val

open Idealize.ShloMosaic Idealize.ShloMosaic.ValueIdx

abbrev S4096x1408 : Shape := ⟨2, ![4096, 1408]⟩
abbrev S32x11264 : Shape := ⟨2, ![32, 11264]⟩
abbrev S32x1408 : Shape := ⟨2, ![32, 1408]⟩
abbrev S4096x11264 : Shape := ⟨2, ![4096, 11264]⟩
abbrev S8192x11264 : Shape := ⟨2, ![8192, 11264]⟩
abbrev S11264x512 : Shape := ⟨2, ![11264, 512]⟩
abbrev S88x4096 : Shape := ⟨2, ![88, 4096]⟩
abbrev S88x512 : Shape := ⟨2, ![88, 512]⟩
abbrev S11264x4096 : Shape := ⟨2, ![11264, 4096]⟩

abbrev pwordA (jj : Fin 11264) : Fin 1408 :=
  ⟨128 * (jj.val / 1024) + jj.val % 128, by have := jj.isLt; omega⟩

abbrev pwordB (nn : Fin 4096) : Fin 512 :=
  ⟨128 * (nn.val / 1024) + nn.val % 128, by have := nn.isLt; omega⟩

abbrev plane {n : Nat} (jj : Fin n) : Fin 8 := ⟨jj.val % 1024 / 128, by omega⟩

abbrev pgrpB (j : Fin 11264) : Fin 88 := ⟨j.val / 128, by have := j.isLt; omega⟩

def WtA (QW : IVec S4096x1408 32) (SC : FVec Ideal S32x11264 .f32) (QZ : IVec S32x1408 32) :
    S4096x11264.Idx → EReal := fun i =>
  deq (nib (QW (ix2 (i 0) (pwordA (i 1)))) (plane (i 1))) (nib (QZ (ix2 (grpA (i 0)) (pwordA (i 1)))) (plane (i 1)))
    (SC (ix2 (grpA (i 0)) (i 1)))

theorem WtA_ix2 (QW : IVec S4096x1408 32) (SC : FVec Ideal S32x11264 .f32) (QZ : IVec S32x1408 32)
    (k : Fin 4096) (jj : Fin 11264) :
    WtA QW SC QZ (ix2 k jj) =
      deq (nib (QW (ix2 k (pwordA jj))) (plane jj)) (nib (QZ (ix2 (grpA k) (pwordA jj))) (plane jj))
        (SC (ix2 (grpA k) jj)) := rfl

def WtB (QW : IVec S11264x512 32) (SC : FVec Ideal S88x4096 .f32) (QZ : IVec S88x512 32) :
    S11264x4096.Idx → EReal := fun i =>
  deq (nib (QW (ix2 (i 0) (pwordB (i 1)))) (plane (i 1))) (nib (QZ (ix2 (pgrpB (i 0)) (pwordB (i 1)))) (plane (i 1)))
    (SC (ix2 (pgrpB (i 0)) (i 1)))

theorem WtB_ix2 (QW : IVec S11264x512 32) (SC : FVec Ideal S88x4096 .f32) (QZ : IVec S88x512 32)
    (j : Fin 11264) (nn : Fin 4096) :
    WtB QW SC QZ (ix2 j nn) =
      deq (nib (QW (ix2 j (pwordB nn))) (plane nn)) (nib (QZ (ix2 (pgrpB j) (pwordB nn))) (plane nn))
        (SC (ix2 (pgrpB j) nn)) := rfl

def HP (X : FVec Ideal S8192x4096 .bf16)
    (QWg : IVec S4096x1408 32) (SCg : FVec Ideal S32x11264 .f32) (QZg : IVec S32x1408 32)
    (QWu : IVec S4096x1408 32) (SCu : FVec Ideal S32x11264 .f32) (QZu : IVec S32x1408 32) :
    S8192x11264.Idx → EReal := fun i =>
  gate (∑ k : Fin 4096, X (ix2 (i 0) k) * WtA QWg SCg QZg (ix2 k (i 1)))
    (∑ k : Fin 4096, X (ix2 (i 0) k) * WtA QWu SCu QZu (ix2 k (i 1)))

theorem HP_ix2 (X : FVec Ideal S8192x4096 .bf16)
    (QWg : IVec S4096x1408 32) (SCg : FVec Ideal S32x11264 .f32) (QZg : IVec S32x1408 32)
    (QWu : IVec S4096x1408 32) (SCu : FVec Ideal S32x11264 .f32) (QZu : IVec S32x1408 32)
    (m : Fin 8192) (jj : Fin 11264) :
    HP X QWg SCg QZg QWu SCu QZu (ix2 m jj) =
      gate (∑ k : Fin 4096, X (ix2 m k) * WtA QWg SCg QZg (ix2 k jj))
        (∑ k : Fin 4096, X (ix2 m k) * WtA QWu SCu QZu (ix2 k jj)) := rfl

def OP (Hn : FVec Ideal S8192x11264 .bf16)
    (QW : IVec S11264x512 32) (SC : FVec Ideal S88x4096 .f32) (QZ : IVec S88x512 32) :
    S8192x4096.Idx → EReal := fun i =>
  ∑ j : Fin 11264, Hn (ix2 (i 0) j) * WtB QW SC QZ (ix2 j (i 1))

theorem OP_ix2 (Hn : FVec Ideal S8192x11264 .bf16)
    (QW : IVec S11264x512 32) (SC : FVec Ideal S88x4096 .f32) (QZ : IVec S88x512 32)
    (m : Fin 8192) (nn : Fin 4096) :
    OP Hn QW SC QZ (ix2 m nn) = ∑ j : Fin 11264, Hn (ix2 m j) * WtB QW SC QZ (ix2 j nn) := rfl

end Cert.Val

end
-- ==== Proof.Val.BlockSpec.lean ====
import proofs.«429270_j84954453115513_3_alg».proof.Proof.Val.KSpec
import proofs.«429270_j84954453115513_3_alg».proof.Proof.Val.AlgSum
import Idealize.ShloMosaic.Lib.ValueIdx

noncomputable section

open scoped BigOperators

namespace Cert.Val

open Idealize.ShloMosaic Idealize.ShloMosaic.ValueIdx

abbrev S1024x1024 : Shape := ⟨2, ![1024, 1024]⟩
abbrev S1024x128 : Shape := ⟨2, ![1024, 128]⟩
abbrev S8x1024 : Shape := ⟨2, ![8, 1024]⟩
abbrev S8x128 : Shape := ⟨2, ![8, 128]⟩

abbrev bword (cc : Fin 1024) : Fin 128 := ⟨cc.val % 128, Nat.mod_lt _ (by decide)⟩

abbrev blane (cc : Fin 1024) : Fin 8 := ⟨cc.val / 128, by have := cc.isLt; omega⟩

abbrev bgrp (ρ : Fin 1024) : Fin 8 := ⟨ρ.val / 128, by have := ρ.isLt; omega⟩

def wblk (qw : IVec S1024x128 32) (sc : FVec Ideal S8x1024 .f32) (qz : IVec S8x128 32) :
    S1024x1024.Idx → EReal := fun i =>
  deq (nib (qw (ix2 (i 0) (bword (i 1)))) (blane (i 1))) (nib (qz (ix2 (bgrp (i 0)) (bword (i 1)))) (blane (i 1)))
    (sc (ix2 (bgrp (i 0)) (i 1)))

theorem wblk_ix2 (qw : IVec S1024x128 32) (sc : FVec Ideal S8x1024 .f32) (qz : IVec S8x128 32)
    (ρ cc : Fin 1024) :
    wblk qw sc qz (ix2 ρ cc) =
      deq (nib (qw (ix2 ρ (bword cc))) (blane cc)) (nib (qz (ix2 (bgrp ρ) (bword cc))) (blane cc))
        (sc (ix2 (bgrp ρ) cc)) := rfl

def stepAcc (acc : FVec Ideal S1024x1024 .f32) (xb : FVec Ideal S1024x1024 .bf16)
    (qw : IVec S1024x128 32) (sc : FVec Ideal S8x1024 .f32) (qz : IVec S8x128 32) :
    S1024x1024.Idx → EReal := fun i =>
  acc i + ∑ ρ : Fin 1024, xb (ix2 (i 0) ρ) * wblk qw sc qz (ix2 ρ (i 1))

section Sums
variable {α : Type*} [AddCommMonoid α]

theorem tile_idx_lt {T : ℕ} (k : Fin T) (ρ : Fin 1024) : k.val * 1024 + ρ.val < T * 1024 := by
  have := k.isLt; have := ρ.isLt; omega

theorem sum_tiles1024 {T : ℕ} (f : Fin (T * 1024) → α) :
    ∑ k : Fin T, ∑ ρ : Fin 1024, f ⟨k.val * 1024 + ρ.val, tile_idx_lt k ρ⟩ = ∑ kk, f kk := by
  rw [← Equiv.sum_comp (finProdFinEquiv (m := T) (n := 1024)) f, Fintype.sum_prod_type]
  refine Finset.sum_congr rfl fun k _ => Finset.sum_congr rfl fun ρ _ => ?_
  exact congrArg _ (Fin.ext (by simp only [finProdFinEquiv_apply_val]; omega))

theorem chunk_idx_lt (i : Fin 4) (q : Fin 256) : 256 * i.val + q.val < 1024 := by
  have := i.isLt; have := q.isLt; omega

theorem sum_1024_chunks (g : Fin 1024 → α) :
    ∑ ρ, g ρ = ∑ i : Fin 4, ∑ q : Fin 256, g ⟨256 * i.val + q.val, chunk_idx_lt i q⟩ := by
  rw [← Equiv.sum_comp (finProdFinEquiv (m := 4) (n := 256)) g, Fintype.sum_prod_type]
  refine Finset.sum_congr rfl fun i _ => Finset.sum_congr rfl fun q _ => ?_
  exact congrArg _ (Fin.ext (by simp only [finProdFinEquiv_apply_val]; omega))

def partialSum {T : ℕ} (t : Fin T → α) (n : ℕ) : α := ∑ k : Fin T, if k.val < n then t k else 0

@[simp] theorem partialSum_zero {T : ℕ} (t : Fin T → α) : partialSum t 0 = 0 := by
  simp [partialSum]

theorem partialSum_succ {T : ℕ} (t : Fin T → α) (k : Fin T) :
    partialSum t (k.val + 1) = partialSum t k.val + t k := by
  have e : t k = ∑ x : Fin T, if x = k then t x else 0 := by
    rw [Finset.sum_ite_eq' Finset.univ k (fun x => t x), if_pos (Finset.mem_univ k)]
  unfold partialSum
  rw [e, ← Finset.sum_add_distrib]
  refine Finset.sum_congr rfl fun x _ => ?_
  by_cases h1 : x.val < k.val
  · have h2 : x.val < k.val + 1 := by omega
    have h3 : ¬ x = k := fun e => by rw [e] at h1; omega
    rw [if_pos h1, if_pos h2, if_neg h3, add_zero]
  · by_cases h3 : x = k
    · subst h3
      rw [if_neg h1, if_pos (Nat.lt_succ_self _), if_pos rfl, zero_add]
    · have h2 : ¬ x.val < k.val + 1 := fun h => h3 (Fin.ext (by omega))
      rw [if_neg h1, if_neg h2, if_neg h3, add_zero]

theorem partialSum_all {T : ℕ} (t : Fin T → α) : partialSum t T = ∑ k, t k :=
  Finset.sum_congr rfl fun k _ => if_pos k.isLt

end Sums

abbrev chunkRow (i : Fin 4) (q : Fin 256) : Fin 1024 := ⟨256 * i.val + q.val, chunk_idx_lt i q⟩

def chunkSum (xb : FVec Ideal S1024x1024 .bf16)
    (qw : IVec S1024x128 32) (sc : FVec Ideal S8x1024 .f32) (qz : IVec S8x128 32) (r cc : Fin 1024) (i : Fin 4) :
    EReal :=
  ∑ q : Fin 256, xb (ix2 r (chunkRow i q)) * wblk qw sc qz (ix2 (chunkRow i q) cc)

theorem stepAcc_chunks (acc : FVec Ideal S1024x1024 .f32) (xb : FVec Ideal S1024x1024 .bf16)
    (qw : IVec S1024x128 32) (sc : FVec Ideal S8x1024 .f32) (qz : IVec S8x128 32) (r cc : Fin 1024) :
    acc (ix2 r cc) + chunkSum xb qw sc qz r cc 0 + chunkSum xb qw sc qz r cc 1 + chunkSum xb qw sc qz r cc 2
        + chunkSum xb qw sc qz r cc 3 = stepAcc acc xb qw sc qz (ix2 r cc) :=
  (add_four_chunks (acc (ix2 r cc)) (chunkSum xb qw sc qz r cc)).trans
    (congrArg (acc (ix2 r cc) + ·) (sum_1024_chunks fun ρ => xb (ix2 r ρ) * wblk qw sc qz (ix2 ρ cc)).symm)

abbrev grpRow0 (i : Fin 4) (t : Fin 128) : Fin 1024 :=
  ⟨256 * i.val + t.val, by have := i.isLt; have := t.isLt; omega⟩

abbrev grpRow1 (i : Fin 4) (t : Fin 128) : Fin 1024 :=
  ⟨256 * i.val + (128 + t.val), by have := i.isLt; have := t.isLt; omega⟩

theorem chunkSum_split (xb : FVec Ideal S1024x1024 .bf16)
    (qw : IVec S1024x128 32) (sc : FVec Ideal S8x1024 .f32) (qz : IVec S8x128 32) (r cc : Fin 1024) (i : Fin 4) :
    chunkSum xb qw sc qz r cc i =
      ∑ t : Fin 128, xb (ix2 r (grpRow0 i t)) * wblk qw sc qz (ix2 (grpRow0 i t) cc)
        + ∑ t : Fin 128, xb (ix2 r (grpRow1 i t)) * wblk qw sc qz (ix2 (grpRow1 i t) cc) :=
  sum_256_split (fun q => xb (ix2 r (chunkRow i q)) * wblk qw sc qz (ix2 (chunkRow i q) cc))

theorem bgrp_grpRow0 (i : Fin 4) (t : Fin 128) :
    bgrp (grpRow0 i t) = ⟨2 * i.val, by have := i.isLt; omega⟩ :=
  Fin.ext (by show (256 * i.val + t.val) / 128 = 2 * i.val; have := t.isLt; omega)

theorem bgrp_grpRow1 (i : Fin 4) (t : Fin 128) :
    bgrp (grpRow1 i t) = ⟨2 * i.val + 1, by have := i.isLt; omega⟩ :=
  Fin.ext (by show (256 * i.val + (128 + t.val)) / 128 = 2 * i.val + 1; have := t.isLt; omega)

abbrev row8 (m : Fin 8) (r : Fin 1024) : Fin 8192 := ⟨m.val * 1024 + r.val, by have := m.isLt; have := r.isLt; omega⟩
abbrev idx4 (k : Fin 4) (ρ : Fin 1024) : Fin 4096 := ⟨k.val * 1024 + ρ.val, by have := k.isLt; have := ρ.isLt; omega⟩
abbrev idx11 (n : Fin 11) (cc : Fin 1024) : Fin 11264 :=
  ⟨n.val * 1024 + cc.val, by have := n.isLt; have := cc.isLt; omega⟩
abbrev word11 (n : Fin 11) (p : Fin 128) : Fin 1408 := ⟨n.val * 128 + p.val, by have := n.isLt; have := p.isLt; omega⟩
abbrev word4 (n : Fin 4) (p : Fin 128) : Fin 512 := ⟨n.val * 128 + p.val, by have := n.isLt; have := p.isLt; omega⟩
abbrev grp4 (k : Fin 4) (g : Fin 8) : Fin 32 := ⟨k.val * 8 + g.val, by have := k.isLt; have := g.isLt; omega⟩
abbrev grp11 (k : Fin 11) (g : Fin 8) : Fin 88 := ⟨k.val * 8 + g.val, by have := k.isLt; have := g.isLt; omega⟩

theorem tile_word (n cc : ℕ) (h : cc < 1024) :
    128 * ((n * 1024 + cc) / 1024) + (n * 1024 + cc) % 128 = n * 128 + cc % 128 := by omega

theorem tile_lane (n cc : ℕ) (h : cc < 1024) : (n * 1024 + cc) % 1024 / 128 = cc / 128 := by
  rw [show (n * 1024 + cc) % 1024 = cc by omega]

theorem tile_grp (k ρ : ℕ) : (k * 1024 + ρ) / 128 = k * 8 + ρ / 128 := by omega

section Region0
variable (X : FVec Ideal S8192x4096 .bf16)
  (QW : IVec S4096x1408 32) (SC : FVec Ideal S32x11264 .f32) (QZ : IVec S32x1408 32)

def xBlk (m : Fin 8) (k : Fin 4) : FVec Ideal S1024x1024 .bf16 := fun i => X (ix2 (row8 m (i 0)) (idx4 k (i 1)))
def qwBlk (k : Fin 4) (n : Fin 11) : IVec S1024x128 32 := fun i => QW (ix2 (idx4 k (i 0)) (word11 n (i 1)))
def scBlk (k : Fin 4) (n : Fin 11) : FVec Ideal S8x1024 .f32 := fun i => SC (ix2 (grp4 k (i 0)) (idx11 n (i 1)))
def qzBlk (k : Fin 4) (n : Fin 11) : IVec S8x128 32 := fun i => QZ (ix2 (grp4 k (i 0)) (word11 n (i 1)))

theorem wblk_blocks (k : Fin 4) (n : Fin 11) (ρ cc : Fin 1024) :
    wblk (qwBlk QW k n) (scBlk SC k n) (qzBlk QZ k n) (ix2 ρ cc) = WtA QW SC QZ (ix2 (idx4 k ρ) (idx11 n cc)) := by
  rw [wblk_ix2, WtA_ix2, show pwordA (idx11 n cc) = word11 n (bword cc) from Fin.ext (tile_word _ _ cc.isLt),
    show plane (idx11 n cc) = blane cc from Fin.ext (tile_lane _ _ cc.isLt),
    show grpA (idx4 k ρ) = grp4 k (bgrp ρ) from Fin.ext (tile_grp _ _)]
  rfl

def accTerm0 (m : Fin 8) (n : Fin 11) (r cc : Fin 1024) (k : Fin 4) : EReal :=
  ∑ ρ : Fin 1024, xBlk X m k (ix2 r ρ) * wblk (qwBlk QW k n) (scBlk SC k n) (qzBlk QZ k n) (ix2 ρ cc)

theorem sum_accTerm0 (m : Fin 8) (n : Fin 11) (r cc : Fin 1024) :
    ∑ k : Fin 4, accTerm0 X QW SC QZ m n r cc k
      = ∑ kk : Fin 4096, X (ix2 (row8 m r) kk) * WtA QW SC QZ (ix2 kk (idx11 n cc)) := by
  refine Eq.trans ?_
    (sum_tiles1024 (T := 4) (fun kk : Fin 4096 => X (ix2 (row8 m r) kk) * WtA QW SC QZ (ix2 kk (idx11 n cc))))
  refine Finset.sum_congr rfl fun k _ => Finset.sum_congr rfl fun ρ _ => ?_
  rw [wblk_blocks]
  rfl

theorem stepAcc_prefix0 (acc : FVec Ideal S1024x1024 .f32) (m : Fin 8) (n : Fin 11) (k : Fin 4) (r cc : Fin 1024)
    (hacc : acc (ix2 r cc) = partialSum (accTerm0 X QW SC QZ m n r cc) k.val) :
    stepAcc acc (xBlk X m k) (qwBlk QW k n) (scBlk SC k n) (qzBlk QZ k n) (ix2 r cc)
      = partialSum (accTerm0 X QW SC QZ m n r cc) (k.val + 1) :=
  (congrArg (· + accTerm0 X QW SC QZ m n r cc k) hacc).trans (partialSum_succ _ k).symm

end Region0

theorem HP_blocks (X : FVec Ideal S8192x4096 .bf16)
    (QWg : IVec S4096x1408 32) (SCg : FVec Ideal S32x11264 .f32) (QZg : IVec S32x1408 32)
    (QWu : IVec S4096x1408 32) (SCu : FVec Ideal S32x11264 .f32) (QZu : IVec S32x1408 32)
    (m : Fin 8) (n : Fin 11) (r cc : Fin 1024) :
    HP X QWg SCg QZg QWu SCu QZu (ix2 (row8 m r) (idx11 n cc))
      = gate (partialSum (accTerm0 X QWg SCg QZg m n r cc) 4) (partialSum (accTerm0 X QWu SCu QZu m n r cc) 4) := by
  rw [HP_ix2, partialSum_all, partialSum_all, sum_accTerm0, sum_accTerm0]

section Region1
variable (Hn : FVec Ideal S8192x11264 .bf16)
  (QW : IVec S11264x512 32) (SC : FVec Ideal S88x4096 .f32) (QZ : IVec S88x512 32)

def hBlk (m : Fin 8) (k : Fin 11) : FVec Ideal S1024x1024 .bf16 := fun i => Hn (ix2 (row8 m (i 0)) (idx11 k (i 1)))
def qwBlk' (k : Fin 11) (n : Fin 4) : IVec S1024x128 32 := fun i => QW (ix2 (idx11 k (i 0)) (word4 n (i 1)))
def scBlk' (k : Fin 11) (n : Fin 4) : FVec Ideal S8x1024 .f32 := fun i => SC (ix2 (grp11 k (i 0)) (idx4 n (i 1)))
def qzBlk' (k : Fin 11) (n : Fin 4) : IVec S8x128 32 := fun i => QZ (ix2 (grp11 k (i 0)) (word4 n (i 1)))

theorem wblk_blocks' (k : Fin 11) (n : Fin 4) (ρ cc : Fin 1024) :
    wblk (qwBlk' QW k n) (scBlk' SC k n) (qzBlk' QZ k n) (ix2 ρ cc) = WtB QW SC QZ (ix2 (idx11 k ρ) (idx4 n cc)) := by
  rw [wblk_ix2, WtB_ix2, show pwordB (idx4 n cc) = word4 n (bword cc) from Fin.ext (tile_word _ _ cc.isLt),
    show plane (idx4 n cc) = blane cc from Fin.ext (tile_lane _ _ cc.isLt),
    show pgrpB (idx11 k ρ) = grp11 k (bgrp ρ) from Fin.ext (tile_grp _ _)]
  rfl

def accTerm1 (m : Fin 8) (n : Fin 4) (r cc : Fin 1024) (k : Fin 11) : EReal :=
  ∑ ρ : Fin 1024, hBlk Hn m k (ix2 r ρ) * wblk (qwBlk' QW k n) (scBlk' SC k n) (qzBlk' QZ k n) (ix2 ρ cc)

theorem sum_accTerm1 (m : Fin 8) (n : Fin 4) (r cc : Fin 1024) :
    ∑ k : Fin 11, accTerm1 Hn QW SC QZ m n r cc k
      = ∑ j : Fin 11264, Hn (ix2 (row8 m r) j) * WtB QW SC QZ (ix2 j (idx4 n cc)) := by
  refine Eq.trans ?_
    (sum_tiles1024 (T := 11) (fun j : Fin 11264 => Hn (ix2 (row8 m r) j) * WtB QW SC QZ (ix2 j (idx4 n cc))))
  refine Finset.sum_congr rfl fun k _ => Finset.sum_congr rfl fun ρ _ => ?_
  rw [wblk_blocks']
  rfl

theorem stepAcc_prefix1 (acc : FVec Ideal S1024x1024 .f32) (m : Fin 8) (n : Fin 4) (k : Fin 11) (r cc : Fin 1024)
    (hacc : acc (ix2 r cc) = partialSum (accTerm1 Hn QW SC QZ m n r cc) k.val) :
    stepAcc acc (hBlk Hn m k) (qwBlk' QW k n) (scBlk' SC k n) (qzBlk' QZ k n) (ix2 r cc)
      = partialSum (accTerm1 Hn QW SC QZ m n r cc) (k.val + 1) :=
  (congrArg (· + accTerm1 Hn QW SC QZ m n r cc k) hacc).trans (partialSum_succ _ k).symm

theorem OP_blocks (m : Fin 8) (n : Fin 4) (r cc : Fin 1024) :
    OP Hn QW SC QZ (ix2 (row8 m r) (idx4 n cc)) = partialSum (accTerm1 Hn QW SC QZ m n r cc) 11 := by
  rw [OP_ix2, partialSum_all, sum_accTerm1]

end Region1

end Cert.Val

end
-- ==== Proof.Val.ChunkVal.lean ====
import proofs.«429270_j84954453115513_3_alg».proof.Proof.Val.DeqBlock
import proofs.«429270_j84954453115513_3_alg».proof.Proof.Val.BlockSpec

noncomputable section

open scoped BigOperators

namespace Cert.Val

open Idealize.ShloMosaic Idealize.ShloMosaic.ValueIdx

theorem inb2 {A B a b o p : ℕ} (h0 : o + a ≤ A) (h1 : p + b ≤ B) :
    ∀ ax, (![o, p] : Fin 2 → ℕ) ax + (![a, b] : Fin 2 → ℕ) ax ≤ (⟨2, ![A, B]⟩ : Shape).size ax :=
  Fin.forall_fin_two.2 ⟨h0, h1⟩

-- The accumulator after chunk i of a grid point: the seven loads at the chunk's offsets, one accumulation.
def chunkAt (i : Fin 4) (acc : FVec Ideal S1024x1024 .f32) (xb : FVec Ideal S1024x1024 .bf16)
    (qw : IVec S1024x128 32) (sc : FVec Ideal S8x1024 .f32) (qz : IVec S8x128 32) : FVec Ideal S1024x1024 .f32 :=
  chunkStep (F := Ideal) acc
    (View.ld (Val := Elt Ideal) (e' := .bf16) xb (Rect.unit (s := S1024x1024) ![0, 256 * i.val] ![1024, 256] (inb2 (by omega) (by omega))))
    (View.ld (Val := Elt Ideal) (e' := .i32) qw (Rect.unit (s := S1024x128) ![256 * i.val, 0] ![128, 128] (inb2 (by omega) (by omega))))
    (View.ld (Val := Elt Ideal) (e' := .i32) qz (Rect.unit (s := S8x128) ![2 * i.val, 0] ![1, 128] (inb2 (by omega) (by omega))))
    (View.ld (Val := Elt Ideal) (e' := .f32) sc (Rect.unit (s := S8x1024) ![2 * i.val, 0] ![1, 1024] (inb2 (by omega) (by omega))))
    (View.ld (Val := Elt Ideal) (e' := .i32) qw (Rect.unit (s := S1024x128) ![256 * i.val + 128, 0] ![128, 128] (inb2 (by omega) (by omega))))
    (View.ld (Val := Elt Ideal) (e' := .i32) qz (Rect.unit (s := S8x128) ![2 * i.val + 1, 0] ![1, 128] (inb2 (by omega) (by omega))))
    (View.ld (Val := Elt Ideal) (e' := .f32) sc (Rect.unit (s := S8x1024) ![2 * i.val + 1, 0] ![1, 1024] (inb2 (by omega) (by omega))))

-- Chunk i adds its 256-term partial product: its first group is group 2 i of the tile, its second group 2 i + 1.
theorem chunkAt_apply (i : Fin 4) (acc : FVec Ideal S1024x1024 .f32) (xb : FVec Ideal S1024x1024 .bf16)
    (qw : IVec S1024x128 32) (sc : FVec Ideal S8x1024 .f32) (qz : IVec S8x128 32) (r cc : Fin 1024) :
    chunkAt i acc xb qw sc qz (ix2 r cc) = acc (ix2 r cc) + chunkSum xb qw sc qz r cc i := by
  refine (chunkStep_apply _ _ _ _ _ _ _ _ r cc).trans ?_
  rw [chunkSum_split]
  congr 2 <;> refine Finset.sum_congr rfl fun t _ => ?_
  · rw [wblk_ix2, bgrp_grpRow0,
      ld_unit_ix2 (Val := Elt Ideal) (e := .bf16) xb ![0, 256 * i.val] _ r (half0 t) r (grpRow0 i t) (Nat.zero_add _) rfl,
      ld_unit_ix2 (Val := Elt Ideal) (e := .i32) qw ![256 * i.val, 0] _ t (colWord cc) (grpRow0 i t) (bword cc) rfl (Nat.zero_add _),
      ld_unit_ix2 (Val := Elt Ideal) (e := .i32) qz ![2 * i.val, 0] _ (0 : Fin 1) (colWord cc) ⟨2 * i.val, by omega⟩ (bword cc) rfl (Nat.zero_add _),
      ld_unit_ix2 (Val := Elt Ideal) (e := .f32) sc ![2 * i.val, 0] _ (0 : Fin 1) cc ⟨2 * i.val, by omega⟩ cc rfl (Nat.zero_add _)]
  · rw [wblk_ix2, bgrp_grpRow1,
      ld_unit_ix2 (Val := Elt Ideal) (e := .bf16) xb ![0, 256 * i.val] _ r (half1 t) r (grpRow1 i t) (Nat.zero_add _) rfl,
      ld_unit_ix2 (Val := Elt Ideal) (e := .i32) qw ![256 * i.val + 128, 0] _ t (colWord cc) (grpRow1 i t) (bword cc) (Nat.add_assoc _ _ _) (Nat.zero_add _),
      ld_unit_ix2 (Val := Elt Ideal) (e := .i32) qz ![2 * i.val + 1, 0] _ (0 : Fin 1) (colWord cc) ⟨2 * i.val + 1, by omega⟩ (bword cc) rfl (Nat.zero_add _),
      ld_unit_ix2 (Val := Elt Ideal) (e := .f32) sc ![2 * i.val + 1, 0] _ (0 : Fin 1) cc ⟨2 * i.val + 1, by omega⟩ cc rfl (Nat.zero_add _)]

theorem four_chunks (acc : FVec Ideal S1024x1024 .f32) (xb : FVec Ideal S1024x1024 .bf16)
    (qw : IVec S1024x128 32) (sc : FVec Ideal S8x1024 .f32) (qz : IVec S8x128 32) :
    chunkAt 3 (chunkAt 2 (chunkAt 1 (chunkAt 0 acc xb qw sc qz) xb qw sc qz) xb qw sc qz) xb qw sc qz
      = stepAcc acc xb qw sc qz := by
  funext j
  obtain ⟨r, cc, rfl⟩ : ∃ r cc : Fin 1024, j = ix2 r cc := ⟨j 0, j 1, eq_ix2 j⟩
  rw [chunkAt_apply, chunkAt_apply, chunkAt_apply, chunkAt_apply]
  exact stepAcc_chunks acc xb qw sc qz r cc

end Cert.Val

end
-- ==== Proof.Val.Reg0Step.lean ====
import proofs.«429270_j84954453115513_3_alg».proof.Proof.KI.Pieces0
import proofs.«429270_j84954453115513_3_alg».proof.Proof.Val.Reg0Pay
import proofs.«429270_j84954453115513_3_alg».proof.Proof.Val.ChunkVal

noncomputable section

namespace Cert.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem

theorem zero_off2 : (![0, 0] : Fin 2 → ℕ) = fun _ => 0 :=
  funext fun a => by match a with | ⟨0, _⟩ => rfl | ⟨1, _⟩ => rfl

variable {c : Dev nD} {i : grid0.Coords}
  {arg3 arg10 : Memref sig .tc .vmem KernelIdeal.S1024x1024 .bf16} {arg4 arg7 : Memref sig .tc .vmem KernelIdeal.S1024x128 .i32}
  {arg5 arg8 : Memref sig .tc .vmem KernelIdeal.S8x1024 .f32} {arg6 arg9 : Memref sig .tc .vmem KernelIdeal.S8x128 .i32}
  {arg11 arg12 : Memref sig .tc .vmem KernelIdeal.S1024x1024 .f32}
  {harg3 : arg3.IsWhole} {harg4 : arg4.IsWhole} {harg5 : arg5.IsWhole} {harg6 : arg6.IsWhole} {harg7 : arg7.IsWhole}
  {harg8 : arg8.IsWhole} {harg9 : arg9.IsWhole} {harg10 : arg10.IsWhole} {harg11 : arg11.IsWhole} {harg12 : arg12.IsWhole}
  {x0 : Vec Ideal KernelIdeal.S1024x1024 .bf16} {x1 x4 : Vec Ideal KernelIdeal.S1024x128 .i32}
  {x2 x5 : Vec Ideal KernelIdeal.S8x1024 .f32} {x3 x6 : Vec Ideal KernelIdeal.S8x128 .i32}
  {xs0 xs1 : Vec Ideal KernelIdeal.S1024x1024 .f32}

-- Each accumulator ends holding the last value stored, which unfolds to the four chunk updates in turn.
theorem step0_A {hc0 : rst0 i} {hc1 : ¬fin0 i} :
    gate0_A c i arg3 harg3 arg4 harg4 arg5 harg5 arg6 harg6 arg7 harg7 arg8 harg8 arg9 harg9 arg10 harg10 arg11 harg11 arg12 harg12 hc0 hc1 x0 x1 x2 x3 x4 x5 x6 = stepAcc (fun _ => (0 : EReal)) x0 x1 x2 x3 ∧
    up0_A c i arg3 harg3 arg4 harg4 arg5 harg5 arg6 harg6 arg7 harg7 arg8 harg8 arg9 harg9 arg10 harg10 arg11 harg11 arg12 harg12 hc0 hc1 x0 x1 x2 x3 x4 x5 x6 = stepAcc (fun _ => (0 : EReal)) x0 x4 x5 x6 := by
  unfold gate0_A up0_A
  rw [View.read_writes_junk_eq_canon, View.read_writes_junk_eq_canon]
  unfold run0_A
  dsimp only
  sl_unfold_words
  simp only [View.canon_cons_unit_zero (S := KernelIdeal.S1024x1024) zero_off2, View.readAt_eq_ld,
    Memref.IsWhole.read_unread, View.ld_unit_zero (S := KernelIdeal.S1024x1024) zero_off2,
    readCov_cons_unit_zero (S := KernelIdeal.S1024x1024) _ zero_off2]
  rw [pay2_zero, pay3_zero]
  exact ⟨four_chunks _ x0 x1 x2 x3, four_chunks _ x0 x4 x5 x6⟩

theorem step0_B {hc0 : ¬rst0 i} {hc1 : ¬fin0 i} :
    gate0_B c i arg3 harg3 arg4 harg4 arg5 harg5 arg6 harg6 arg7 harg7 arg8 harg8 arg9 harg9 arg10 harg10 arg11 harg11 arg12 harg12 hc0 hc1 x0 x1 x2 x3 x4 x5 x6 xs0 xs1 = stepAcc xs0 x0 x1 x2 x3 ∧ up0_B c i arg3 harg3 arg4 harg4 arg5 harg5 arg6 harg6 arg7 harg7 arg8 harg8 arg9 harg9 arg10 harg10 arg11 harg11 arg12 harg12 hc0 hc1 x0 x1 x2 x3 x4 x5 x6 xs0 xs1 = stepAcc xs1 x0 x4 x5 x6 := by
  unfold gate0_B up0_B
  rw [View.read_writes_junk_eq_canon, View.read_writes_junk_eq_canon]
  unfold run0_B
  dsimp only
  sl_unfold_words
  simp only [View.canon_cons_unit_zero (S := KernelIdeal.S1024x1024) zero_off2, View.readAt_eq_ld,
    Memref.IsWhole.read_unread, View.ld_unit_zero (S := KernelIdeal.S1024x1024) zero_off2,
    readCov_cons_unit_zero (S := KernelIdeal.S1024x1024) _ zero_off2]
  exact ⟨four_chunks xs0 x0 x1 x2 x3, four_chunks xs1 x0 x4 x5 x6⟩

theorem step0_C {hc0 : ¬rst0 i} {hc1 : fin0 i} :
    gate0_C c i arg3 harg3 arg4 harg4 arg5 harg5 arg6 harg6 arg7 harg7 arg8 harg8 arg9 harg9 arg10 harg10 arg11 harg11 arg12 harg12 hc0 hc1 x0 x1 x2 x3 x4 x5 x6 xs0 xs1 = stepAcc xs0 x0 x1 x2 x3 ∧ up0_C c i arg3 harg3 arg4 harg4 arg5 harg5 arg6 harg6 arg7 harg7 arg8 harg8 arg9 harg9 arg10 harg10 arg11 harg11 arg12 harg12 hc0 hc1 x0 x1 x2 x3 x4 x5 x6 xs0 xs1 = stepAcc xs1 x0 x4 x5 x6 ∧
    out0_C c i arg3 harg3 arg4 harg4 arg5 harg5 arg6 harg6 arg7 harg7 arg8 harg8 arg9 harg9 arg10 harg10 arg11 harg11 arg12 harg12 hc0 hc1 x0 x1 x2 x3 x4 x5 x6 xs0 xs1 = fun j => gate (stepAcc xs0 x0 x1 x2 x3 j) (stepAcc xs1 x0 x4 x5 x6 j) := by
  unfold gate0_C up0_C out0_C
  rw [View.read_writes_junk_eq_canon, View.read_writes_junk_eq_canon, View.read_writes_junk_eq_canon]
  unfold run0_C
  dsimp only
  sl_unfold_words
  simp only [View.canon_cons_unit_zero (S := KernelIdeal.S1024x1024) zero_off2, View.readAt_eq_ld,
    Memref.IsWhole.read_unread, View.ld_unit_zero (S := KernelIdeal.S1024x1024) zero_off2,
    readCov_cons_unit_zero (S := KernelIdeal.S1024x1024) _ zero_off2]
  have hg := four_chunks xs0 x0 x1 x2 x3
  have hu := four_chunks xs1 x0 x4 x5 x6
  exact ⟨hg, hu, funext fun j => congrArg₂ gate (congrFun hg j) (congrFun hu j)⟩

end Cert.Val

end
-- ==== Proof.Val.Reg0Final.lean ====
import proofs.«429270_j84954453115513_3_alg».proof.Proof.KI.Frame0
import proofs.«429270_j84954453115513_3_alg».proof.Proof.Val.Reg0Step
import proofs.«429270_j84954453115513_3_alg».proof.Proof.Val.BlockSpec
import Idealize.ShloMosaic.Lib.Pipeline.Value

noncomputable section

open scoped BigOperators

namespace Cert.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

theorem idx0_0 : ∀ t : Fin grid0.N, win0_0.index t (0 : Fin 2) = t.val / 44 ∧ win0_0.index t (1 : Fin 2) = t.val % 4 := by decide +kernel
theorem idx0_1 : ∀ t : Fin grid0.N, win0_1.index t (0 : Fin 2) = t.val % 4 ∧ win0_1.index t (1 : Fin 2) = t.val / 4 % 11 := by decide +kernel
theorem idx0_2 : ∀ t : Fin grid0.N, win0_2.index t (0 : Fin 2) = t.val % 4 ∧ win0_2.index t (1 : Fin 2) = t.val / 4 % 11 := by decide +kernel
theorem idx0_3 : ∀ t : Fin grid0.N, win0_3.index t (0 : Fin 2) = t.val % 4 ∧ win0_3.index t (1 : Fin 2) = t.val / 4 % 11 := by decide +kernel
theorem idx0_4 : ∀ t : Fin grid0.N, win0_4.index t (0 : Fin 2) = t.val % 4 ∧ win0_4.index t (1 : Fin 2) = t.val / 4 % 11 := by decide +kernel
theorem idx0_5 : ∀ t : Fin grid0.N, win0_5.index t (0 : Fin 2) = t.val % 4 ∧ win0_5.index t (1 : Fin 2) = t.val / 4 % 11 := by decide +kernel
theorem idx0_6 : ∀ t : Fin grid0.N, win0_6.index t (0 : Fin 2) = t.val % 4 ∧ win0_6.index t (1 : Fin 2) = t.val / 4 % 11 := by decide +kernel
theorem idx0_7 : ∀ t : Fin grid0.N, win0_7.index t (0 : Fin 2) = t.val / 44 ∧ win0_7.index t (1 : Fin 2) = t.val / 4 % 11 := by decide +kernel

-- Point t of the grid (8, 11, 4), walked row-major: row tile, column tile, reduction tile.
def gm (t : Fin cfg0.N) : Fin 8 := ⟨t.val / 44, by have h : t.val < 352 := lt_of_lt_of_eq t.isLt (show cfg0.N = 352 from N_0); omega⟩
def gn (t : Fin cfg0.N) : Fin 11 := ⟨t.val / 4 % 11, Nat.mod_lt _ (by decide)⟩
def gk (t : Fin cfg0.N) : Fin 4 := ⟨t.val % 4, Nat.mod_lt _ (by decide)⟩

section Arith
variable (X : FVec Ideal S8192x4096 .bf16) (QW : IVec S4096x1408 32) (SC : FVec Ideal S32x11264 .f32) (QZ : IVec S32x1408 32)

-- One accumulation step over the blocks of point t.
def tileStep0 (t : Fin cfg0.N) (acc : FVec Ideal S1024x1024 .f32) : S1024x1024.Idx → EReal :=
  stepAcc acc (xBlk X (gm t) (gk t)) (qwBlk QW (gk t) (gn t)) (scBlk SC (gk t) (gn t)) (qzBlk QZ (gk t) (gn t))

theorem inv_reset (t : Fin cfg0.N) (h0 : t.val % 4 = 0) (r cc : Fin 1024) :
    tileStep0 X QW SC QZ t (fun _ => 0) (ix2 r cc) = partialSum (accTerm0 X QW SC QZ (gm t) (gn t) r cc) (t.val % 4 + 1) := by
  have hk : (gk t).val = 0 := h0
  have h := stepAcc_prefix0 X QW SC QZ (fun _ => (0 : EReal)) (gm t) (gn t) (gk t) r cc (by rw [hk, partialSum_zero])
  unfold tileStep0
  rw [h, hk, h0]

-- Inside a reduction run the point before has the same row and column tiles and the reduction tile before.
theorem inv_step (acc : FVec Ideal S1024x1024 .f32) (n : ℕ) (hn : n + 1 < cfg0.N) (h0 : ¬(n + 1) % 4 = 0) (r cc : Fin 1024)
    (hacc : acc (ix2 r cc) = partialSum (accTerm0 X QW SC QZ (gm ⟨n, Nat.lt_of_succ_lt hn⟩) (gn ⟨n, Nat.lt_of_succ_lt hn⟩) r cc) (n % 4 + 1)) :
    tileStep0 X QW SC QZ ⟨n + 1, hn⟩ acc (ix2 r cc)
      = partialSum (accTerm0 X QW SC QZ (gm ⟨n + 1, hn⟩) (gn ⟨n + 1, hn⟩) r cc) ((n + 1) % 4 + 1) := by
  have em : gm ⟨n, Nat.lt_of_succ_lt hn⟩ = gm ⟨n + 1, hn⟩ := Fin.ext (by show n / 44 = (n + 1) / 44; omega)
  have en : gn ⟨n, Nat.lt_of_succ_lt hn⟩ = gn ⟨n + 1, hn⟩ := Fin.ext (by show n / 4 % 11 = (n + 1) / 4 % 11; omega)
  have ek : n % 4 + 1 = (gk ⟨n + 1, hn⟩).val := by show n % 4 + 1 = (n + 1) % 4; omega
  rw [em, en, ek] at hacc
  exact stepAcc_prefix0 X QW SC QZ acc (gm ⟨n + 1, hn⟩) (gn ⟨n + 1, hn⟩) (gk ⟨n + 1, hn⟩) r cc hacc

end Arith

section Region0
variable (V : (c : Dev nD) → (b : Ref sig .tc) → Buf (Elt Ideal) ((c : Thread nD τ).loc b))

abbrev Xa (c : Dev nD) : FVec Ideal S8192x4096 .bf16 := V c main_v0
abbrev QWg (c : Dev nD) : IVec S4096x1408 32 := V c main_v1
abbrev SCg (c : Dev nD) : FVec Ideal S32x11264 .f32 := V c main_v5
abbrev QZg (c : Dev nD) : IVec S32x1408 32 := V c main_v6
abbrev QWu (c : Dev nD) : IVec S4096x1408 32 := V c main_v7
abbrev SCu (c : Dev nD) : FVec Ideal S32x11264 .f32 := V c main_v11
abbrev QZu (c : Dev nD) : IVec S32x1408 32 := V c main_v12

-- Each window's block at point t is the corresponding block of its array.
theorem xblk_eq (c : Dev nD) (t : Fin cfg0.N) : (iblk0 V c 0 t : FVec Ideal S1024x1024 .bf16) = xBlk (Xa V c) (gm t) (gk t) := by
  funext y
  show V c main_v0 _ = V c main_v0 _
  congr 1
  funext a
  apply Fin.ext
  match a with
  | ⟨0, _⟩ => show win0_0.index t (0 : Fin 2) * 1024 + 1 * (y 0).val = t.val / 44 * 1024 + (y 0).val; rw [(idx0_0 t).1]; omega
  | ⟨1, _⟩ => show win0_0.index t (1 : Fin 2) * 1024 + 1 * (y 1).val = t.val % 4 * 1024 + (y 1).val; rw [(idx0_0 t).2]; omega
theorem qwg_eq (c : Dev nD) (t : Fin cfg0.N) : (iblk0 V c 1 t : IVec S1024x128 32) = qwBlk (QWg V c) (gk t) (gn t) := by
  funext y
  show V c main_v1 _ = V c main_v1 _
  congr 1
  funext a
  apply Fin.ext
  match a with
  | ⟨0, _⟩ => show win0_1.index t (0 : Fin 2) * 1024 + 1 * (y 0).val = t.val % 4 * 1024 + (y 0).val; rw [(idx0_1 t).1]; omega
  | ⟨1, _⟩ => show win0_1.index t (1 : Fin 2) * 128 + 1 * (y 1).val = t.val / 4 % 11 * 128 + (y 1).val; rw [(idx0_1 t).2]; omega
theorem scg_eq (c : Dev nD) (t : Fin cfg0.N) : (iblk0 V c 2 t : FVec Ideal S8x1024 .f32) = scBlk (SCg V c) (gk t) (gn t) := by
  funext y
  show V c main_v5 _ = V c main_v5 _
  congr 1
  funext a
  apply Fin.ext
  match a with
  | ⟨0, _⟩ => show win0_2.index t (0 : Fin 2) * 8 + 1 * (y 0).val = t.val % 4 * 8 + (y 0).val; rw [(idx0_2 t).1]; omega
  | ⟨1, _⟩ => show win0_2.index t (1 : Fin 2) * 1024 + 1 * (y 1).val = t.val / 4 % 11 * 1024 + (y 1).val; rw [(idx0_2 t).2]; omega
theorem qzg_eq (c : Dev nD) (t : Fin cfg0.N) : (iblk0 V c 3 t : IVec S8x128 32) = qzBlk (QZg V c) (gk t) (gn t) := by
  funext y
  show V c main_v6 _ = V c main_v6 _
  congr 1
  funext a
  apply Fin.ext
  match a with
  | ⟨0, _⟩ => show win0_3.index t (0 : Fin 2) * 8 + 1 * (y 0).val = t.val % 4 * 8 + (y 0).val; rw [(idx0_3 t).1]; omega
  | ⟨1, _⟩ => show win0_3.index t (1 : Fin 2) * 128 + 1 * (y 1).val = t.val / 4 % 11 * 128 + (y 1).val; rw [(idx0_3 t).2]; omega
theorem qwu_eq (c : Dev nD) (t : Fin cfg0.N) : (iblk0 V c 4 t : IVec S1024x128 32) = qwBlk (QWu V c) (gk t) (gn t) := by
  funext y
  show V c main_v7 _ = V c main_v7 _
  congr 1
  funext a
  apply Fin.ext
  match a with
  | ⟨0, _⟩ => show win0_4.index t (0 : Fin 2) * 1024 + 1 * (y 0).val = t.val % 4 * 1024 + (y 0).val; rw [(idx0_4 t).1]; omega
  | ⟨1, _⟩ => show win0_4.index t (1 : Fin 2) * 128 + 1 * (y 1).val = t.val / 4 % 11 * 128 + (y 1).val; rw [(idx0_4 t).2]; omega
theorem scu_eq (c : Dev nD) (t : Fin cfg0.N) : (iblk0 V c 5 t : FVec Ideal S8x1024 .f32) = scBlk (SCu V c) (gk t) (gn t) := by
  funext y
  show V c main_v11 _ = V c main_v11 _
  congr 1
  funext a
  apply Fin.ext
  match a with
  | ⟨0, _⟩ => show win0_5.index t (0 : Fin 2) * 8 + 1 * (y 0).val = t.val % 4 * 8 + (y 0).val; rw [(idx0_5 t).1]; omega
  | ⟨1, _⟩ => show win0_5.index t (1 : Fin 2) * 1024 + 1 * (y 1).val = t.val / 4 % 11 * 1024 + (y 1).val; rw [(idx0_5 t).2]; omega
theorem qzu_eq (c : Dev nD) (t : Fin cfg0.N) : (iblk0 V c 6 t : IVec S8x128 32) = qzBlk (QZu V c) (gk t) (gn t) := by
  funext y
  show V c main_v12 _ = V c main_v12 _
  congr 1
  funext a
  apply Fin.ext
  match a with
  | ⟨0, _⟩ => show win0_6.index t (0 : Fin 2) * 8 + 1 * (y 0).val = t.val % 4 * 8 + (y 0).val; rw [(idx0_6 t).1]; omega
  | ⟨1, _⟩ => show win0_6.index t (1 : Fin 2) * 128 + 1 * (y 1).val = t.val / 4 % 11 * 128 + (y 1).val; rw [(idx0_6 t).2]; omega

theorem at0_A_acc (c : Dev nD) (t : Fin cfg0.N) (h0 : t.val % 4 = 0) :
    (at0_A V c t h0).2 = (tileStep0 (Xa V c) (QWg V c) (SCg V c) (QZg V c) t (fun _ => 0), tileStep0 (Xa V c) (QWu V c) (SCu V c) (QZu V c) t (fun _ => 0)) := by
  unfold at0_A tileStep0
  dsimp only
  rw [step0_A.1, step0_A.2, xblk_eq V c t, qwg_eq V c t, scg_eq V c t, qzg_eq V c t, qwu_eq V c t, scu_eq V c t, qzu_eq V c t]
theorem at0_B_acc (c : Dev nD) (t : Fin cfg0.N) (h0 : ¬t.val % 4 = 0) (h3 : ¬t.val % 4 = 3) (xs0 xs1 : Vec Ideal S1024x1024 .f32) :
    (at0_B V c t h0 h3 xs0 xs1).2 = (tileStep0 (Xa V c) (QWg V c) (SCg V c) (QZg V c) t xs0, tileStep0 (Xa V c) (QWu V c) (SCu V c) (QZu V c) t xs1) := by
  unfold at0_B tileStep0
  dsimp only
  rw [step0_B.1, step0_B.2, xblk_eq V c t, qwg_eq V c t, scg_eq V c t, qzg_eq V c t, qwu_eq V c t, scu_eq V c t, qzu_eq V c t]
theorem at0_C_acc (c : Dev nD) (t : Fin cfg0.N) (h3 : t.val % 4 = 3) (xs0 xs1 : Vec Ideal S1024x1024 .f32) :
    (at0_C V c t h3 xs0 xs1).2 = (tileStep0 (Xa V c) (QWg V c) (SCg V c) (QZg V c) t xs0, tileStep0 (Xa V c) (QWu V c) (SCu V c) (QZu V c) t xs1) := by
  unfold at0_C tileStep0
  dsimp only
  rw [step0_C.1, step0_C.2.1, xblk_eq V c t, qwg_eq V c t, scg_eq V c t, qzg_eq V c t, qwu_eq V c t, scu_eq V c t, qzu_eq V c t]
theorem at0_C_out (c : Dev nD) (t : Fin cfg0.N) (h3 : t.val % 4 = 3) (xs0 xs1 : Vec Ideal S1024x1024 .f32) (j : S1024x1024.Idx) :
    ((at0_C V c t h3 xs0 xs1).1 : FVec Ideal S1024x1024 .bf16) j
      = gate (((at0_C V c t h3 xs0 xs1).2.1 : FVec Ideal S1024x1024 .f32) j) (((at0_C V c t h3 xs0 xs1).2.2 : FVec Ideal S1024x1024 .f32) j) := by
  unfold at0_C
  rw [step0_C.1, step0_C.2.1, step0_C.2.2]

-- After point n both accumulators hold the sum of the products of the reduction tiles met so far in the point's run.
theorem acc_inv (c : Dev nD) : ∀ (n : ℕ) (hn : n < cfg0.N) (r cc : Fin 1024),
    ((outsAt0 V c n hn).2.1 : FVec Ideal S1024x1024 .f32) (ix2 r cc) = partialSum (accTerm0 (Xa V c) (QWg V c) (SCg V c) (QZg V c) (gm ⟨n, hn⟩) (gn ⟨n, hn⟩) r cc) (n % 4 + 1)
    ∧ ((outsAt0 V c n hn).2.2 : FVec Ideal S1024x1024 .f32) (ix2 r cc) = partialSum (accTerm0 (Xa V c) (QWu V c) (SCu V c) (QZu V c) (gm ⟨n, hn⟩) (gn ⟨n, hn⟩) r cc) (n % 4 + 1)
  | 0, hn, r, cc => by
    rw [outsAt0_A V c ⟨0, hn⟩ (Nat.zero_mod _), at0_A_acc]
    exact ⟨inv_reset _ _ _ _ ⟨0, hn⟩ (Nat.zero_mod _) r cc, inv_reset _ _ _ _ ⟨0, hn⟩ (Nat.zero_mod _) r cc⟩
  | n + 1, hn, r, cc => by
    by_cases h0 : (n + 1) % 4 = 0
    · rw [outsAt0_A V c ⟨n + 1, hn⟩ h0, at0_A_acc]
      exact ⟨inv_reset _ _ _ _ ⟨n + 1, hn⟩ h0 r cc, inv_reset _ _ _ _ ⟨n + 1, hn⟩ h0 r cc⟩
    · obtain ⟨ihg, ihu⟩ := acc_inv c n (Nat.lt_of_succ_lt hn) r cc
      by_cases h3 : (n + 1) % 4 = 3
      · rw [outsAt0_C V c ⟨n + 1, hn⟩ h3, at0_C_acc]
        exact ⟨inv_step _ _ _ _ _ n hn h0 r cc ihg, inv_step _ _ _ _ _ n hn h0 r cc ihu⟩
      · rw [outsAt0_B V c ⟨n + 1, hn⟩ h0 h3, at0_B_acc]
        exact ⟨inv_step _ _ _ _ _ n hn h0 r cc ihg, inv_step _ _ _ _ _ n hn h0 r cc ihu⟩

abbrev HPa (c : Dev nD) : FVec Ideal S8192x11264 .bf16 :=
  HP (Xa V c) (QWg V c) (SCg V c) (QZg V c) (QWu V c) (SCu V c) (QZu V c)

-- At the last step of a reduction run the output block gates the two full sums.
theorem out_at_C (c : Dev nD) (t : Fin cfg0.N) (h3 : t.val % 4 = 3) (r cc : Fin 1024) :
    ((outsAt0 V c t.val t.isLt).1 : FVec Ideal S1024x1024 .bf16) (ix2 r cc)
      = HPa V c (ix2 (row8 (gm t) r) (idx11 (gn t) cc)) := by
  obtain ⟨hg, hu⟩ := acc_inv V c t.val t.isLt r cc
  rw [outsAt0_C V c t h3] at hg hu ⊢
  rw [at0_C_out V c t h3, hg, hu, show t.val % 4 + 1 = 4 by omega]
  exact (HP_blocks _ _ _ _ _ _ _ (gm t) (gn t) r cc).symm

theorem out_C_fun (c : Dev nD) (t : Fin cfg0.N) (h3 : t.val % 4 = 3) :
    ((outsAt0 V c t.val t.isLt).1 : FVec Ideal S1024x1024 .bf16)
      = fun y => HPa V c (ix2 (row8 (gm t) (y 0)) (idx11 (gn t) (y 1))) :=
  funext fun y => by rw [eq_ix2 y]; exact out_at_C V c t h3 (y 0) (y 1)

theorem flushed_eq0 (c : Dev nD) (t : Fin cfg0.N) (hf : (cfg0.win 7).flush t = true) :
    (dat0 V c).flushed 7 t = ((cfg0.win 7).blk t).view.read (Elt Ideal) (HPa V c) := by
  show (cfg0.win 7).cut (grid0.coords t) ((dat0 V c).after 7 t) = _
  rw [after0_7, out_C_fun V c t ((flush0_7 t).mp hf)]
  funext y
  show HPa V c _ = HPa V c _
  congr 1
  funext a
  apply Fin.ext
  match a with
  | ⟨0, _⟩ => show t.val / 44 * 1024 + (y 0).val = win0_7.index t (0 : Fin 2) * 1024 + 1 * (y 0).val; rw [(idx0_7 t).1]; omega
  | ⟨1, _⟩ => show t.val / 4 % 11 * 1024 + (y 1).val = win0_7.index t (1 : Fin 2) * 1024 + 1 * (y 1).val; rw [(idx0_7 t).2]; omega

-- The point that writes entry (i, j) of the output array: its row and column tiles, last reduction step.
def ptOf (i : Fin 8192) (j : Fin 11264) : Fin cfg0.N :=
  ⟨i.val / 1024 * 44 + j.val / 1024 * 4 + 3, by
    have : cfg0.N = 352 := N_0
    have := i.isLt; have := j.isLt; omega⟩

theorem final0 (c : Dev nD) : (dat0 V c).arrAt 7 cfg0.N = HPa V c :=
  (dat0 V c).arrAt_eq_of_cover 7 (HPa V c) (flushed_eq0 V c) fun i =>
    ⟨ptOf (i 0) (i 1), (flush0_7 _).mpr (by show ((i 0).val / 1024 * 44 + (i 1).val / 1024 * 4 + 3) % 4 = 3; omega), by
      show i ∈ ((View.whole main_v13).slice (win0_7.rect (ptOf (i 0) (i 1)))).set
      rw [View.set_slice_whole, Rect.mem_set_unit]
      intro a
      have h0 : (i 0 : ℕ) < 8192 := (i 0).isLt
      have h1 : (i 1 : ℕ) < 11264 := (i 1).isLt
      match a with
      | ⟨0, _⟩ =>
        show win0_7.index (ptOf (i 0) (i 1)) (0 : Fin 2) * 1024 ≤ (i 0 : ℕ) ∧ (i 0 : ℕ) < win0_7.index (ptOf (i 0) (i 1)) (0 : Fin 2) * 1024 + 1024
        rw [(idx0_7 _).1]
        show ((i 0).val / 1024 * 44 + (i 1).val / 1024 * 4 + 3) / 44 * 1024 ≤ (i 0 : ℕ) ∧ (i 0 : ℕ) < ((i 0).val / 1024 * 44 + (i 1).val / 1024 * 4 + 3) / 44 * 1024 + 1024
        omega
      | ⟨1, _⟩ =>
        show win0_7.index (ptOf (i 0) (i 1)) (1 : Fin 2) * 1024 ≤ (i 1 : ℕ) ∧ (i 1 : ℕ) < win0_7.index (ptOf (i 0) (i 1)) (1 : Fin 2) * 1024 + 1024
        rw [(idx0_7 _).2]
        show ((i 0).val / 1024 * 44 + (i 1).val / 1024 * 4 + 3) / 4 % 11 * 1024 ≤ (i 1 : ℕ) ∧ (i 1 : ℕ) < ((i 0).val / 1024 * 44 + (i 1).val / 1024 * 4 + 3) / 4 % 11 * 1024 + 1024
        omega⟩

end Region0

end Cert.Val

end
-- ==== Proof.Val.Reg1Step.lean ====
import proofs.«429270_j84954453115513_3_alg».proof.Proof.KI.Pieces1
import proofs.«429270_j84954453115513_3_alg».proof.Proof.Val.LibConcat
import proofs.«429270_j84954453115513_3_alg».proof.Proof.Val.ChunkVal

noncomputable section

namespace Cert.Val

open Cert.KernelIdeal Cert.KernelIdeal.Gen Cert.KernelIdeal.Fr
open Idealize.ShloMosaic Idealize.ShloMosaic.ValueIdx Idealize.ShloMosaic.TcCoe Idealize.ShloMosaic.Tactic

theorem hz00 : (![0, 0] : Fin 2 → ℕ) = fun _ => 0 := by
  funext a; match a with | ⟨0, _⟩ => rfl | ⟨1, _⟩ => rfl

/-- The reset stores zero everywhere. -/
theorem pay1_zero : (k1_pay1 : FVec Ideal Cert.KernelIdeal.S1024x1024 .f32) = fun _ => 0 := by
  unfold k1_pay1
  dsimp only
  rw [shapeCast_self]
  funext j
  exact Ideal.ofBits_zero_f32

variable (x0 : Vec Ideal Cert.KernelIdeal.S1024x1024 .bf16) (x1 : Vec Ideal Cert.KernelIdeal.S1024x128 .i32) (x2 : Vec Ideal Cert.KernelIdeal.S8x1024 .f32) (x3 : Vec Ideal Cert.KernelIdeal.S8x128 .i32)
  (c : Dev nD) (i : grid1.Coords) (arg3 : Memref sig .tc .vmem Cert.KernelIdeal.S1024x1024 .bf16) (harg3 : arg3.IsWhole) (arg4 : Memref sig .tc .vmem Cert.KernelIdeal.S1024x128 .i32) (harg4 : arg4.IsWhole) (arg5 : Memref sig .tc .vmem Cert.KernelIdeal.S8x1024 .f32) (harg5 : arg5.IsWhole) (arg6 : Memref sig .tc .vmem Cert.KernelIdeal.S8x128 .i32) (harg6 : arg6.IsWhole) (arg7 : Memref sig .tc .vmem Cert.KernelIdeal.S1024x1024 .f32) (harg7 : arg7.IsWhole) (arg8 : Memref sig .tc .vmem Cert.KernelIdeal.S1024x1024 .f32) (harg8 : arg8.IsWhole)

/-- Whatever the case, the last store leaves one accumulation step over the accumulator the first chunk read: the four chunks in turn. -/
theorem accB_eq (hc0 : ¬rst1 i) (hc1 : ¬fin1 i) (xs0 : Vec Ideal Cert.KernelIdeal.S1024x1024 .f32) :
    accB (F := Ideal) c i arg3 harg3 arg4 harg4 arg5 harg5 arg6 harg6 arg7 harg7 arg8 harg8 hc0 hc1 x0 x1 x2 x3 xs0 = stepAcc xs0 x0 x1 x2 x3 := by
  unfold accB
  rw [View.read_writes_junk_eq_canon]
  unfold run1_B
  dsimp only
  sl_unfold_words
  simp only [View.canon_cons_unit_zero (S := Cert.KernelIdeal.S1024x1024) hz00, readCov_cons_unit_zero (S := Cert.KernelIdeal.S1024x1024) _ hz00, View.readAt_eq_ld,
    harg3.read_unread, harg4.read_unread, harg5.read_unread, harg6.read_unread, harg8.read_unread, View.ld_unit_zero (S := Cert.KernelIdeal.S1024x1024) hz00]
  exact four_chunks xs0 x0 x1 x2 x3

theorem accA_eq (hc0 : rst1 i) (hc1 : ¬fin1 i) :
    accA (F := Ideal) c i arg3 harg3 arg4 harg4 arg5 harg5 arg6 harg6 arg7 harg7 arg8 harg8 hc0 hc1 x0 x1 x2 x3 = stepAcc (fun _ => 0) x0 x1 x2 x3 := by
  unfold accA
  rw [View.read_writes_junk_eq_canon]
  unfold run1_A
  dsimp only
  sl_unfold_words
  simp only [View.canon_cons_unit_zero (S := Cert.KernelIdeal.S1024x1024) hz00, readCov_cons_unit_zero (S := Cert.KernelIdeal.S1024x1024) _ hz00, View.readAt_eq_ld,
    harg3.read_unread, harg4.read_unread, harg5.read_unread, harg6.read_unread, harg8.read_unread, View.ld_unit_zero (S := Cert.KernelIdeal.S1024x1024) hz00]
  rw [pay1_zero]
  exact four_chunks _ x0 x1 x2 x3

theorem accC_eq (hc0 : ¬rst1 i) (hc1 : fin1 i) (xs0 : Vec Ideal Cert.KernelIdeal.S1024x1024 .f32) :
    accC (F := Ideal) c i arg3 harg3 arg4 harg4 arg5 harg5 arg6 harg6 arg7 harg7 arg8 harg8 hc0 hc1 x0 x1 x2 x3 xs0 = stepAcc xs0 x0 x1 x2 x3 := by
  unfold accC
  rw [View.read_writes_junk_eq_canon]
  unfold run1_C
  dsimp only
  sl_unfold_words
  simp only [View.canon_cons_unit_zero (S := Cert.KernelIdeal.S1024x1024) hz00, readCov_cons_unit_zero (S := Cert.KernelIdeal.S1024x1024) _ hz00, View.readAt_eq_ld,
    harg3.read_unread, harg4.read_unread, harg5.read_unread, harg6.read_unread, harg8.read_unread, View.ld_unit_zero (S := Cert.KernelIdeal.S1024x1024) hz00]
  exact four_chunks xs0 x0 x1 x2 x3

theorem outC_eq (hc0 : ¬rst1 i) (hc1 : fin1 i) (xs0 : Vec Ideal Cert.KernelIdeal.S1024x1024 .f32) :
    outC (F := Ideal) c i arg3 harg3 arg4 harg4 arg5 harg5 arg6 harg6 arg7 harg7 arg8 harg8 hc0 hc1 x0 x1 x2 x3 xs0 = stepAcc xs0 x0 x1 x2 x3 := by
  unfold outC
  rw [View.read_writes_junk_eq_canon]
  unfold run1_C
  dsimp only
  sl_unfold_words
  simp only [View.canon_cons_unit_zero (S := Cert.KernelIdeal.S1024x1024) hz00, readCov_cons_unit_zero (S := Cert.KernelIdeal.S1024x1024) _ hz00, View.readAt_eq_ld,
    harg3.read_unread, harg4.read_unread, harg5.read_unread, harg6.read_unread, harg8.read_unread, View.ld_unit_zero (S := Cert.KernelIdeal.S1024x1024) hz00]
  exact four_chunks xs0 x0 x1 x2 x3

end Cert.Val

end
-- ==== Proof.Val.Reg1Final.lean ====
import proofs.«429270_j84954453115513_3_alg».proof.Proof.KI.Frame1
import proofs.«429270_j84954453115513_3_alg».proof.Proof.Val.BlockSpec
import proofs.«429270_j84954453115513_3_alg».proof.Proof.Val.Reg1Step
import Idealize.ShloMosaic.Lib.Pipeline.Value
import Idealize.ShloMosaic.Lib.ValueIdx

noncomputable section

open scoped BigOperators

namespace Cert.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev hArr (c : Dev nD) : FVec Ideal S8192x11264 .bf16 := V c main_v16
abbrev qwArr (c : Dev nD) : IVec S11264x512 32 := V c main_v17
abbrev scArr (c : Dev nD) : FVec Ideal S88x4096 .f32 := V c main_v21
abbrev qzArr (c : Dev nD) : IVec S88x512 32 := V c main_v22

abbrev hblk1 (c : Dev nD) (t : Fin cfg1.N) : Vec Ideal S1024x1024 .bf16 := iblk1 V c 0 t
abbrev qwblk1 (c : Dev nD) (t : Fin cfg1.N) : Vec Ideal S1024x128 .i32 := iblk1 V c 1 t
abbrev scblk1 (c : Dev nD) (t : Fin cfg1.N) : Vec Ideal S8x1024 .f32 := iblk1 V c 2 t
abbrev qzblk1 (c : Dev nD) (t : Fin cfg1.N) : Vec Ideal S8x128 .i32 := iblk1 V c 3 t

/-- The windows' block indices at point t = (row tile t / 44, column tile t / 11 mod 4, reduction tile t mod 11). -/
theorem idx_facts1 : ∀ t : Fin cfg1.N,
    win1_0.index t (0 : Fin 2) = t.val / 44 ∧ win1_0.index t (1 : Fin 2) = t.val % 11
    ∧ win1_1.index t (0 : Fin 2) = t.val % 11 ∧ win1_1.index t (1 : Fin 2) = t.val / 11 % 4
    ∧ win1_2.index t (0 : Fin 2) = t.val % 11 ∧ win1_2.index t (1 : Fin 2) = t.val / 11 % 4
    ∧ win1_3.index t (0 : Fin 2) = t.val % 11 ∧ win1_3.index t (1 : Fin 2) = t.val / 11 % 4
    ∧ win1_4.index t (0 : Fin 2) = t.val / 44 ∧ win1_4.index t (1 : Fin 2) = t.val / 11 % 4 :=
  (by decide +kernel : ∀ t : Fin grid1.N, _)

variable (c : Dev nD) (t : Fin cfg1.N) (m : Fin 8) (nn : Fin 4) (k : Fin 11) (r cc : Fin 1024)

/-- A step at point t = (m, nn, k) takes the first k reduction tiles' sum to the first k + 1: each block of the point is that block of its array. -/
theorem step_at (hm : m.val = t.val / 44) (hnn : nn.val = t.val / 11 % 4) (hk : k.val = t.val % 11)
    (acc : FVec Ideal S1024x1024 .f32)
    (hacc : acc (ix2 r cc) = partialSum (accTerm1 (hArr V c) (qwArr V c) (scArr V c) (qzArr V c) m nn r cc) k.val) :
    stepAcc acc (hblk1 V c t) (qwblk1 V c t) (scblk1 V c t) (qzblk1 V c t) (ix2 r cc)
      = partialSum (accTerm1 (hArr V c) (qwArr V c) (scArr V c) (qzArr V c) m nn r cc) (k.val + 1) := by
  obtain ⟨f00, f01, f10, f11, f20, f21, f30, f31, -⟩ := idx_facts1 t
  have e0 : hblk1 V c t = hBlk (hArr V c) m k := funext fun x => congrArg (V c main_v16) (Shape.idx_ext₂
    (by show win1_0.index t (0 : Fin 2) * 1024 + 1 * (x 0).val = m.val * 1024 + (x 0).val; rw [f00, hm]; omega)
    (by show win1_0.index t (1 : Fin 2) * 1024 + 1 * (x 1).val = k.val * 1024 + (x 1).val; rw [f01, hk]; omega))
  have e1 : qwblk1 V c t = qwBlk' (qwArr V c) k nn := funext fun x => congrArg (V c main_v17) (Shape.idx_ext₂
    (by show win1_1.index t (0 : Fin 2) * 1024 + 1 * (x 0).val = k.val * 1024 + (x 0).val; rw [f10, hk]; omega)
    (by show win1_1.index t (1 : Fin 2) * 128 + 1 * (x 1).val = nn.val * 128 + (x 1).val; rw [f11, hnn]; omega))
  have e2 : scblk1 V c t = scBlk' (scArr V c) k nn := funext fun x => congrArg (V c main_v21) (Shape.idx_ext₂
    (by show win1_2.index t (0 : Fin 2) * 8 + 1 * (x 0).val = k.val * 8 + (x 0).val; rw [f20, hk]; omega)
    (by show win1_2.index t (1 : Fin 2) * 1024 + 1 * (x 1).val = nn.val * 1024 + (x 1).val; rw [f21, hnn]; omega))
  have e3 : qzblk1 V c t = qzBlk' (qzArr V c) k nn := funext fun x => congrArg (V c main_v22) (Shape.idx_ext₂
    (by show win1_3.index t (0 : Fin 2) * 8 + 1 * (x 0).val = k.val * 8 + (x 0).val; rw [f30, hk]; omega)
    (by show win1_3.index t (1 : Fin 2) * 128 + 1 * (x 1).val = nn.val * 128 + (x 1).val; rw [f31, hnn]; omega))
  rw [e0, e1, e2, e3]
  exact stepAcc_prefix1 (hArr V c) (qwArr V c) (scArr V c) (qzArr V c) acc m nn k r cc hacc

/-- Point t leaves one step over zero (first point of a reduction run) or over what the point before left; a run's last point stores the same as output. -/
theorem point_step :
    (outsAt1 V c t.val t.isLt).2 = stepAcc (if t.val % 11 = 0 then fun _ => 0 else
        (outsAt1 V c (t.val - 1) (Nat.lt_of_le_of_lt (Nat.sub_le _ _) t.isLt)).2) (hblk1 V c t) (qwblk1 V c t) (scblk1 V c t) (qzblk1 V c t)
      ∧ (t.val % 11 = 10 → (outsAt1 V c t.val t.isLt).1 = (outsAt1 V c t.val t.isLt).2) := by
  by_cases h0 : t.val % 11 = 0
  · have h1 : ¬t.val % 11 = 10 := by omega
    rw [outsAt1_A V c t h0 h1, if_pos h0]
    dsimp only
    exact ⟨accA_eq .., fun h => absurd h h1⟩
  · rw [if_neg h0]
    by_cases h1 : t.val % 11 = 10
    · rw [outsAt1_C V c t h0 h1]
      dsimp only
      exact ⟨accC_eq .., fun _ => (outC_eq ..).trans (accC_eq ..).symm⟩
    · rw [outsAt1_B V c t h0 h1]
      dsimp only
      exact ⟨accB_eq .., fun h => absurd h h1⟩

/-- After point n = (m, nn, k) the accumulator holds the first k + 1 reduction tiles' sum: a run stays in one output block and starts from zero. -/
theorem acc_inv1 : ∀ (n : ℕ) (hn : n < cfg1.N) (m : Fin 8) (nn : Fin 4) (r cc : Fin 1024),
    m.val = n / 44 → nn.val = n / 11 % 4 →
    ((outsAt1 V c n hn).2 : FVec Ideal S1024x1024 .f32) (ix2 r cc) = partialSum (accTerm1 (hArr V c) (qwArr V c) (scArr V c) (qzArr V c) m nn r cc) (n % 11 + 1) := by
  intro n
  induction n with
  | zero =>
    intro hn m nn r cc hm hnn
    rw [(point_step V c ⟨0, hn⟩).1]
    exact step_at V c ⟨0, hn⟩ m nn 0 r cc hm hnn rfl _ (partialSum_zero _).symm
  | succ n ih =>
    intro hn m nn r cc hm hnn
    rw [(point_step V c ⟨n + 1, hn⟩).1]
    refine step_at V c ⟨n + 1, hn⟩ m nn ⟨(n + 1) % 11, Nat.mod_lt _ (by decide)⟩ r cc hm hnn rfl _ ?_
    by_cases h0 : (n + 1) % 11 = 0
    · rw [if_pos h0]; show (0 : EReal) = partialSum _ ((n + 1) % 11); rw [h0, partialSum_zero]
    · rw [if_neg h0]
      refine (ih (Nat.lt_of_succ_lt hn) m nn r cc (by omega) (by omega)).trans (congrArg _ ?_)
      show n % 11 + 1 = (n + 1) % 11; omega

/-- The block stored at a last reduction point is that block of the down projection. -/
theorem flushed1_eq (hf : (cfg1.win 4).flush t = true) :
    (dat1 V c).flushed 4 t = ((cfg1.win 4).blk t).view.read (Elt Ideal) (OP (hArr V c) (qwArr V c) (scArr V c) (qzArr V c)) := by
  have h1 : t.val % 11 = 10 := (flush1_4 t).mp hf
  have hN : cfg1.N = 352 := N_1
  have ht := t.isLt
  obtain ⟨-, -, -, -, -, -, -, -, f40, f41⟩ := idx_facts1 t
  show (cfg1.win 4).cut (grid1.coords t) ((dat1 V c).after 4 t) = _
  rw [after1_4]
  funext j
  obtain ⟨r, cc, rfl⟩ : ∃ (r cc : Fin 1024), j = ix2 r cc := ⟨j 0, j 1, eq_ix2 j⟩
  show ((outsAt1 V c t.val t.isLt).1 : FVec Ideal S1024x1024 .f32) (ix2 r cc)
    = OP (hArr V c) (qwArr V c) (scArr V c) (qzArr V c) (((cfg1.win 4).blk t).view.emb (ix2 r cc))
  rw [show (((cfg1.win 4).blk t).view.emb (ix2 r cc) : S8192x4096.Idx)
      = ix2 (row8 ⟨t.val / 44, by omega⟩ r) (idx4 ⟨t.val / 11 % 4, by omega⟩ cc) from Shape.idx_ext₂
    (by show win1_4.index t (0 : Fin 2) * 1024 + 1 * r.val = t.val / 44 * 1024 + r.val; rw [f40]; omega)
    (by show win1_4.index t (1 : Fin 2) * 1024 + 1 * cc.val = t.val / 11 % 4 * 1024 + cc.val; rw [f41]; omega),
    OP_blocks, (point_step V c t).2 h1, acc_inv1 V c t.val t.isLt ⟨t.val / 44, by omega⟩ ⟨t.val / 11 % 4, by omega⟩ r cc rfl rfl, h1]

/-- The result is the down projection of the four operands: every index lies in the block of a last reduction point. -/
theorem final1 (c : Dev nD) :
    (dat1 (F := Ideal) V c).arrAt 4 cfg1.N = OP (V c main_v16) (V c main_v17) (V c main_v21) (V c main_v22) :=
  (dat1 V c).arrAt_eq_of_cover 4 (OP (hArr V c) (qwArr V c) (scArr V c) (qzArr V c)) (flushed1_eq V c) fun i => by
    have hi0 : (i 0 : Nat) < 8192 := (i 0).isLt
    have hi1 : (i 1 : Nat) < 4096 := (i 1).isLt
    have hN : cfg1.N = 352 := N_1
    obtain ⟨n, hn⟩ : ∃ n, n = (i 0 : Nat) / 1024 * 44 + (i 1 : Nat) / 1024 * 11 + 10 := ⟨_, rfl⟩
    have hlt : n < cfg1.N := by omega
    refine ⟨⟨n, hlt⟩, (flush1_4 _).mpr (by show n % 11 = 10; omega), ?_⟩
    show i ∈ ((View.whole main_v23).slice (win1_4.rect ⟨n, hlt⟩)).set
    rw [View.set_slice_whole, Rect.mem_set_unit]
    obtain ⟨-, -, -, -, -, -, -, -, f40, f41⟩ := idx_facts1 ⟨n, hlt⟩
    intro a
    match a with
    | ⟨0, _⟩ =>
      show win1_4.index _ (0 : Fin 2) * 1024 ≤ (i 0 : Nat) ∧ (i 0 : Nat) < win1_4.index _ (0 : Fin 2) * 1024 + 1024
      rw [f40]; show n / 44 * 1024 ≤ (i 0 : Nat) ∧ (i 0 : Nat) < n / 44 * 1024 + 1024
      omega
    | ⟨1, _⟩ =>
      show win1_4.index _ (1 : Fin 2) * 1024 ≤ (i 1 : Nat) ∧ (i 1 : Nat) < win1_4.index _ (1 : Fin 2) * 1024 + 1024
      rw [f41]; show n / 11 % 4 * 1024 ≤ (i 1 : Nat) ∧ (i 1 : Nat) < n / 11 % 4 * 1024 + 1024
      omega

end Cert.Val

end
-- ==== Proof.Val.HostLayout.lean ====
import proofs.«429270_j84954453115513_3_alg».proof.Proof.Gen.KernelIdeal.Regions
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

namespace Cert.Val

open Cert.KernelIdeal Cert.KernelIdeal.Gen
open Idealize.ShloMosaic Idealize.ShloMosaic.TcCoe Idealize.ShloMosaic.ValueIdx
open Idealize.SL.Sem

theorem sitofp_zero32 : FloatOps.sitofp (F := Ideal) .f32 (0#32 : BitVec 32) = (0 : EReal) := by
  show (((0#32 : BitVec 32).toInt : ℝ) : EReal) = 0
  simp

-- Rows of T tiles, each tile A by B: swapping the tile's two axes moves column a * B + b to column b * A + a.
theorem tileSwap_apply {α : Type} {R T A B N : ℕ} (X : (⟨2, ![R, N]⟩ : Shape).Idx → α)
    (h1 : (⟨2, ![R, N]⟩ : Shape).ShapeCasts ⟨4, ![R, T, A, B]⟩)
    (h2 : (⟨4, ![R, T, A, B]⟩ : Shape).Transposes [0, 1, 3, 2] ⟨4, ![R, T, B, A]⟩)
    (h3 : (⟨4, ![R, T, B, A]⟩ : Shape).ShapeCasts ⟨2, ![R, N]⟩) (hN : N = T * (A * B))
    (r : Fin R) (t : Fin T) (a : Fin A) (b : Fin B)
    (hj : t.val * (A * B) + b.val * A + a.val < N) (hk : t.val * (A * B) + a.val * B + b.val < N) :
    shapeCast ⟨2, ![R, N]⟩ (transpose ⟨4, ![R, T, B, A]⟩ [0, 1, 3, 2] (shapeCast ⟨4, ![R, T, A, B]⟩ X h1) h2) h3 (ix2 r ⟨_, hj⟩)
      = X (ix2 r ⟨_, hk⟩) := by
  refine (shapeCast_apply _ h3 _ (ix4 r t b a) ?_).trans
    ((transpose_apply _ _ h2 _ (ix4 r t a b) fun i => ?_).trans (shapeCast_apply _ h1 _ _ ?_))
  · rw [Shape.rowMajor_val_four, Shape.rowMajor_val_two]
    show ((r.val * T + t.val) * B + b.val) * A + a.val = r.val * N + (t.val * (A * B) + b.val * A + a.val)
    rw [hN]; ring
  · match i with
    | ⟨0, _⟩ | ⟨1, _⟩ | ⟨2, _⟩ | ⟨3, _⟩ => rfl
  · rw [Shape.rowMajor_val_two, Shape.rowMajor_val_four]
    show r.val * N + (t.val * (A * B) + a.val * B + b.val) = ((r.val * T + t.val) * A + a.val) * B + b.val
    rw [hN]; ring

-- Columns appended to an array: inside the operand's extent the operand, beyond it the padding value.
theorem padCols_apply {α : Type} {a b b' : ℕ} {hi : Fin 2 → ℕ} {u : Shape} (X : (⟨2, ![a, b]⟩ : Shape).Idx → α) (v : u.Idx → α)
    (h : (⟨2, ![a, b]⟩ : Shape).Pads ![0, 0] hi ![0, 0] ⟨2, ![a, b']⟩) (hu : 0 < u.numel) {z : α}
    (hz : v (Shape.Idx.first hu) = z) (g : Fin a) (j : Fin b') :
    pad ⟨2, ![a, b']⟩ ![0, 0] hi ![0, 0] X v h hu (ix2 g j) = if hj : j.val < b then X (ix2 g ⟨j.val, hj⟩) else z := by
  by_cases hj : j.val < b
  · rw [dif_pos hj]
    exact pad_apply_of_inside _ _ _ _ _ _ _ _ (ix2 g ⟨j.val, hj⟩) fun
      | ⟨0, _⟩ | ⟨1, _⟩ => ((Nat.zero_add _).trans (Nat.mul_one _)).symm
  · rw [dif_neg hj]
    refine (pad_apply_of_not_inside _ _ _ _ _ _ _ (ix2 g j) (1 : Fin 2) fun h' => hj ?_).trans hz
    have h3 : (j.val - 0) / (0 + 1) < b := h'.2.2
    omega

-- Rows appended to an array, likewise.
theorem padRows_apply {α : Type} {a a' b : ℕ} {hi : Fin 2 → ℕ} {u : Shape} (X : (⟨2, ![a, b]⟩ : Shape).Idx → α) (v : u.Idx → α)
    (h : (⟨2, ![a, b]⟩ : Shape).Pads ![0, 0] hi ![0, 0] ⟨2, ![a', b]⟩) (hu : 0 < u.numel) {z : α}
    (hz : v (Shape.Idx.first hu) = z) (g : Fin a') (j : Fin b) :
    pad ⟨2, ![a', b]⟩ ![0, 0] hi ![0, 0] X v h hu (ix2 g j) = if hg : g.val < a then X (ix2 ⟨g.val, hg⟩ j) else z := by
  by_cases hg : g.val < a
  · rw [dif_pos hg]
    exact pad_apply_of_inside _ _ _ _ _ _ _ _ (ix2 ⟨g.val, hg⟩ j) fun
      | ⟨0, _⟩ | ⟨1, _⟩ => ((Nat.zero_add _).trans (Nat.mul_one _)).symm
  · rw [dif_neg hg]
    refine (pad_apply_of_not_inside _ _ _ _ _ _ _ (ix2 g j) (0 : Fin 2) fun h' => hg ?_).trans hz
    have h3 : (g.val - 0) / (0 + 1) < a := h'.2.2
    omega

end Cert.Val
-- ==== Proof.Val.Host0.lean ====
import proofs.«429270_j84954453115513_3_alg».proof.Proof.Gen.KernelIdeal.Regions
import proofs.«429270_j84954453115513_3_alg».proof.Proof.Val.HostLayout

namespace Cert.Val

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

theorem V12_v0_apply (r : Fin 8192) (k : Fin 4096) :
    (V12 m c main_v0 : S8192x4096.Idx → EReal) (ix2 r k) = (V0 m c main_arg0 : S8192x4096.Idx → EReal) (ix2 r k) := by
  after_results_simp; rfl

theorem V12_v1_apply (k : Fin 4096) (p : Fin 1408) :
    (V12 m c main_v1 : S4096x1408.Idx → BitVec 32) (ix2 k p)
      = if h : p.val < 1376 then (V0 m c main_arg1 : S4096x1376.Idx → BitVec 32) (ix2 k ⟨p.val, h⟩) else 0#32 := by
  after_results_simp; exact padCols_apply _ _ pads_S4096x1376_S4096x1408_000_0320 _ rfl k p

theorem V12_v5_apply (g : Fin 32) (nt : Fin 11) (s : Fin 8) (cc : Fin 128) :
    (V12 m c main_v5 : S32x11264.Idx → EReal) (ix2 g (⟨nt.val * 1024 + s.val * 128 + cc.val, by omega⟩ : Fin 11264))
      = if h : nt.val * 1024 + cc.val * 8 + s.val < 11008
          then (V0 m c main_arg2 : S32x11008.Idx → EReal) (ix2 g ⟨nt.val * 1024 + cc.val * 8 + s.val, h⟩) else (0 : EReal) := by
  after_results_simp
  exact (tileSwap_apply _ _ _ _ rfl g nt cc s _ (by omega)).trans (padCols_apply _ _ pads_S32x11008_S32x11264_000_02560 _ sitofp_zero32 g _)

theorem V12_v6_apply (g : Fin 32) (p : Fin 1408) :
    (V12 m c main_v6 : S32x1408.Idx → BitVec 32) (ix2 g p)
      = if h : p.val < 1376 then (V0 m c main_arg3 : S32x1376.Idx → BitVec 32) (ix2 g ⟨p.val, h⟩) else 0#32 := by
  after_results_simp; exact padCols_apply _ _ pads_S32x1376_S32x1408_000_0320 _ rfl g p

theorem V12_v7_apply (k : Fin 4096) (p : Fin 1408) :
    (V12 m c main_v7 : S4096x1408.Idx → BitVec 32) (ix2 k p)
      = if h : p.val < 1376 then (V0 m c main_arg4 : S4096x1376.Idx → BitVec 32) (ix2 k ⟨p.val, h⟩) else 0#32 := by
  after_results_simp; exact padCols_apply _ _ pads_S4096x1376_S4096x1408_000_0320 _ rfl k p

theorem V12_v11_apply (g : Fin 32) (nt : Fin 11) (s : Fin 8) (cc : Fin 128) :
    (V12 m c main_v11 : S32x11264.Idx → EReal) (ix2 g (⟨nt.val * 1024 + s.val * 128 + cc.val, by omega⟩ : Fin 11264))
      = if h : nt.val * 1024 + cc.val * 8 + s.val < 11008
          then (V0 m c main_arg5 : S32x11008.Idx → EReal) (ix2 g ⟨nt.val * 1024 + cc.val * 8 + s.val, h⟩) else (0 : EReal) := by
  after_results_simp
  exact (tileSwap_apply _ _ _ _ rfl g nt cc s _ (by omega)).trans (padCols_apply _ _ pads_S32x11008_S32x11264_000_02560 _ sitofp_zero32 g _)

theorem V12_v12_apply (g : Fin 32) (p : Fin 1408) :
    (V12 m c main_v12 : S32x1408.Idx → BitVec 32) (ix2 g p)
      = if h : p.val < 1376 then (V0 m c main_arg6 : S32x1376.Idx → BitVec 32) (ix2 g ⟨p.val, h⟩) else 0#32 := by
  after_results_simp; exact padCols_apply _ _ pads_S32x1376_S32x1408_000_0320 _ rfl g p

end Cert.Val
-- ==== Proof.Val.Host1.lean ====
import proofs.«429270_j84954453115513_3_alg».proof.Proof.Gen.KernelIdeal.Regions
import proofs.«429270_j84954453115513_3_alg».proof.Proof.Val.HostLayout

namespace Cert.Val

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

theorem V19_v16_apply (r : Fin 8192) (nt : Fin 11) (s : Fin 8) (cc : Fin 128) :
    (V19 m outs c main_v16 : S8192x11264.Idx → EReal) (ix2 r (⟨nt.val * 1024 + cc.val * 8 + s.val, by omega⟩ : Fin 11264))
      = (outs 13 main_v13 c : S8192x11264.Idx → EReal) (ix2 r (⟨nt.val * 1024 + s.val * 128 + cc.val, by omega⟩ : Fin 11264)) := by
  after_results_simp
  rw [V13, Function.update_self]
  exact tileSwap_apply _ _ _ _ rfl r nt s cc _ _

theorem V19_v17_apply (j : Fin 11264) (p : Fin 512) :
    (V19 m outs c main_v17 : S11264x512.Idx → BitVec 32) (ix2 j p)
      = if h : j.val < 11008 then (V0 m c main_arg7 : S11008x512.Idx → BitVec 32) (ix2 ⟨j.val, h⟩ p) else 0#32 := by
  after_results_simp
  rw [V13_of m outs c main_arg7 (by decide)]
  after_results_simp
  exact padRows_apply _ _ pads_S11008x512_S11264x512_02560_000 _ rfl j p

theorem V19_v21_apply (g : Fin 88) (nt : Fin 4) (s : Fin 8) (cc : Fin 128) :
    (V19 m outs c main_v21 : S88x4096.Idx → EReal) (ix2 g (⟨nt.val * 1024 + s.val * 128 + cc.val, by omega⟩ : Fin 4096))
      = if h : g.val < 86
          then (V0 m c main_arg8 : S86x4096.Idx → EReal) (ix2 ⟨g.val, h⟩ (⟨nt.val * 1024 + cc.val * 8 + s.val, by omega⟩ : Fin 4096))
          else (0 : EReal) := by
  after_results_simp
  rw [V13_of m outs c main_arg8 (by decide)]
  after_results_simp
  exact (tileSwap_apply _ _ _ _ rfl g nt cc s _ (by omega)).trans (padRows_apply _ _ pads_S86x4096_S88x4096_020_000 _ sitofp_zero32 g _)

theorem V19_v22_apply (g : Fin 88) (p : Fin 512) :
    (V19 m outs c main_v22 : S88x512.Idx → BitVec 32) (ix2 g p)
      = if h : g.val < 86 then (V0 m c main_arg9 : S86x512.Idx → BitVec 32) (ix2 ⟨g.val, h⟩ p) else 0#32 := by
  after_results_simp
  rw [V13_of m outs c main_arg9 (by decide)]
  after_results_simp
  exact padRows_apply _ _ pads_S86x512_S88x512_020_000 _ rfl g p

theorem V21_v26_apply (r : Fin 8192) (nt : Fin 4) (s : Fin 8) (cc : Fin 128) :
    (V21 m outs c main_v26 : S8192x4096.Idx → EReal) (ix2 r (⟨nt.val * 1024 + cc.val * 8 + s.val, by omega⟩ : Fin 4096))
      = (outs 20 main_v23 c : S8192x4096.Idx → EReal) (ix2 r (⟨nt.val * 1024 + s.val * 128 + cc.val, by omega⟩ : Fin 4096)) := by
  after_results_simp
  rw [V20, Function.update_self]
  exact tileSwap_apply _ _ _ _ rfl r nt s cc _ _

end Cert.Val
-- ==== Proof.Val.AlgPerm.lean ====
import Idealize.ShloMosaic.PureOps.Ideal
import Idealize.ShloMosaic.Lib.ValueIdx
import Mathlib.Logic.Equiv.Defs

namespace Cert.Val

def toSMajor (j : ℕ) : ℕ := j / 1024 * 1024 + j % 8 * 128 + j % 1024 / 8

def ofSMajor (jj : ℕ) : ℕ := jj / 1024 * 1024 + jj % 128 * 8 + jj % 1024 / 128

theorem toSMajor_decomp (nt cc s : ℕ) (hcc : cc < 128) (hs : s < 8) :
    toSMajor (nt * 1024 + cc * 8 + s) = nt * 1024 + s * 128 + cc := by
  unfold toSMajor; omega

theorem ofSMajor_decomp (nt cc s : ℕ) (hcc : cc < 128) (hs : s < 8) :
    ofSMajor (nt * 1024 + s * 128 + cc) = nt * 1024 + cc * 8 + s := by
  unfold ofSMajor; omega

theorem exists_natural_decomp (j : ℕ) : ∃ nt cc s : ℕ, cc < 128 ∧ s < 8 ∧ j = nt * 1024 + cc * 8 + s :=
  ⟨j / 1024, j % 1024 / 8, j % 8, by omega, by omega, by omega⟩

theorem exists_sMajor_decomp (jj : ℕ) : ∃ nt cc s : ℕ, cc < 128 ∧ s < 8 ∧ jj = nt * 1024 + s * 128 + cc :=
  ⟨jj / 1024, jj % 128, jj % 1024 / 128, by omega, by omega, by omega⟩

theorem ofSMajor_toSMajor (j : ℕ) : ofSMajor (toSMajor j) = j := by
  obtain ⟨nt, cc, s, hcc, hs, rfl⟩ := exists_natural_decomp j
  rw [toSMajor_decomp nt cc s hcc hs, ofSMajor_decomp nt cc s hcc hs]

theorem toSMajor_ofSMajor (jj : ℕ) : toSMajor (ofSMajor jj) = jj := by
  obtain ⟨nt, cc, s, hcc, hs, rfl⟩ := exists_sMajor_decomp jj
  rw [ofSMajor_decomp nt cc s hcc hs, toSMajor_decomp nt cc s hcc hs]

theorem toSMajor_nibble (j : ℕ) : toSMajor j % 1024 / 128 = j % 8 := by
  obtain ⟨nt, cc, s, hcc, hs, rfl⟩ := exists_natural_decomp j
  rw [toSMajor_decomp nt cc s hcc hs, show (nt * 1024 + s * 128 + cc) % 1024 = s * 128 + cc by omega,
    show (s * 128 + cc) / 128 = s by omega]
  omega

theorem toSMajor_word (j : ℕ) : 128 * (toSMajor j / 1024) + toSMajor j % 128 = j / 8 := by
  obtain ⟨nt, cc, s, hcc, hs, rfl⟩ := exists_natural_decomp j
  rw [toSMajor_decomp nt cc s hcc hs, show (nt * 1024 + s * 128 + cc) / 1024 = nt by omega,
    show (nt * 1024 + s * 128 + cc) % 128 = cc by omega]
  omega

def colPerm (N : ℕ) (hN : N % 1024 = 0) : Equiv.Perm (Fin N) where
  toFun j := ⟨toSMajor j.val, by have := j.isLt; unfold toSMajor; omega⟩
  invFun jj := ⟨ofSMajor jj.val, by have := jj.isLt; unfold ofSMajor; omega⟩
  left_inv j := Fin.ext (ofSMajor_toSMajor j.val)
  right_inv jj := Fin.ext (toSMajor_ofSMajor jj.val)

abbrev colPerm11 : Equiv.Perm (Fin 11264) := colPerm 11264 (by decide)

abbrev colPerm4 : Equiv.Perm (Fin 4096) := colPerm 4096 (by decide)

end Cert.Val
-- ==== Proof.Val.AlgCompose.lean ====
import proofs.«429270_j84954453115513_3_alg».proof.Proof.Val.Spec
import proofs.«429270_j84954453115513_3_alg».proof.Proof.Val.KSpec
import proofs.«429270_j84954453115513_3_alg».proof.Proof.Val.AlgPerm
import proofs.«429270_j84954453115513_3_alg».proof.Proof.Val.AlgSum

noncomputable section

open scoped BigOperators

namespace Cert.Val

open Idealize.ShloMosaic Idealize.ShloMosaic.ValueIdx

-- at the place of natural column j the word is j / 8, the field j % 8 and the scale that of column j
theorem dotA_colPerm (x : FVec Ideal S8192x4096 .f32) (X : FVec Ideal S8192x4096 .bf16)
    (hX : ∀ (m : Fin 8192) (k : Fin 4096), X (ix2 m k) = x (ix2 m k))
    (gqw : IVec S4096x1376 32) (gsc : FVec Ideal S32x11008 .f32) (gqz : IVec S32x1376 32)
    (QW : IVec S4096x1408 32) (SC : FVec Ideal S32x11264 .f32) (QZ : IVec S32x1408 32)
    (hQW : ∀ (k : Fin 4096) (p : Fin 1408),
      QW (ix2 k p) = if h : p.val < 1376 then gqw (ix2 k (⟨p.val, h⟩ : Fin 1376)) else 0#32)
    (hQZ : ∀ (g : Fin 32) (p : Fin 1408),
      QZ (ix2 g p) = if h : p.val < 1376 then gqz (ix2 g (⟨p.val, h⟩ : Fin 1376)) else 0#32)
    (hSC : ∀ (g : Fin 32) (jj : Fin 11264),
      SC (ix2 g jj) = if h : ofSMajor jj.val < 11008 then gsc (ix2 g (⟨ofSMajor jj.val, h⟩ : Fin 11008)) else 0)
    (m : Fin 8192) (j : Fin 11264) (hj : j.val < 11008) :
    ∑ k : Fin 4096, X (ix2 m k) * WtA QW SC QZ (ix2 k (colPerm11 j))
      = ∑ k : Fin 4096, x (ix2 m k) * WnatA gqw gsc gqz (ix2 k (⟨j.val, hj⟩ : Fin 11008)) := by
  have hp : j.val / 8 < 1376 := by omega
  have hw : pwordA (colPerm11 j) = (⟨j.val / 8, by omega⟩ : Fin 1408) := Fin.ext (toSMajor_word j.val)
  have hl : plane (colPerm11 j) = lane (⟨j.val, hj⟩ : Fin 11008) := Fin.ext (toSMajor_nibble j.val)
  have hs : ofSMajor (colPerm11 j).val = j.val := ofSMajor_toSMajor j.val
  have hs' : ofSMajor (colPerm11 j).val < 11008 := lt_of_eq_of_lt hs hj
  have he : (⟨ofSMajor (colPerm11 j).val, hs'⟩ : Fin 11008) = ⟨j.val, hj⟩ := Fin.ext hs
  refine Finset.sum_congr rfl fun k _ => ?_
  rw [hX, WtA_ix2, WnatA_ix2, hw, hl, hQW, hQZ, hSC, dif_pos hp, dif_pos hp, dif_pos hs', he]

section Layer
variable (x : FVec Ideal S8192x4096 .f32)
  (gqw : IVec S4096x1376 32) (gsc : FVec Ideal S32x11008 .f32) (gqz : IVec S32x1376 32)
  (uqw : IVec S4096x1376 32) (usc : FVec Ideal S32x11008 .f32) (uqz : IVec S32x1376 32)
  (dqw : IVec S11008x512 32) (dsc : FVec Ideal S86x4096 .f32) (dqz : IVec S86x512 32)
  (X : FVec Ideal S8192x4096 .bf16)
  (QWg : IVec S4096x1408 32) (SCg : FVec Ideal S32x11264 .f32) (QZg : IVec S32x1408 32)
  (QWu : IVec S4096x1408 32) (SCu : FVec Ideal S32x11264 .f32) (QZu : IVec S32x1408 32)
  (Hn : FVec Ideal S8192x11264 .bf16)
  (QWd : IVec S11264x512 32) (SCd : FVec Ideal S88x4096 .f32) (QZd : IVec S88x512 32)
  (O : S8192x4096.Idx → EReal)

-- the padded rows of the down weight have scale zero and drop out; every other term is the natural one
theorem compose
    (hX : ∀ (m : Fin 8192) (k : Fin 4096), X (ix2 m k) = x (ix2 m k))
    (hQWg : ∀ (k : Fin 4096) (p : Fin 1408),
      QWg (ix2 k p) = if h : p.val < 1376 then gqw (ix2 k (⟨p.val, h⟩ : Fin 1376)) else 0#32)
    (hQZg : ∀ (g : Fin 32) (p : Fin 1408),
      QZg (ix2 g p) = if h : p.val < 1376 then gqz (ix2 g (⟨p.val, h⟩ : Fin 1376)) else 0#32)
    (hSCg : ∀ (g : Fin 32) (jj : Fin 11264),
      SCg (ix2 g jj) = if h : ofSMajor jj.val < 11008 then gsc (ix2 g (⟨ofSMajor jj.val, h⟩ : Fin 11008)) else 0)
    (hQWu : ∀ (k : Fin 4096) (p : Fin 1408),
      QWu (ix2 k p) = if h : p.val < 1376 then uqw (ix2 k (⟨p.val, h⟩ : Fin 1376)) else 0#32)
    (hQZu : ∀ (g : Fin 32) (p : Fin 1408),
      QZu (ix2 g p) = if h : p.val < 1376 then uqz (ix2 g (⟨p.val, h⟩ : Fin 1376)) else 0#32)
    (hSCu : ∀ (g : Fin 32) (jj : Fin 11264),
      SCu (ix2 g jj) = if h : ofSMajor jj.val < 11008 then usc (ix2 g (⟨ofSMajor jj.val, h⟩ : Fin 11008)) else 0)
    (hHn : ∀ (m : Fin 8192) (j : Fin 11264),
      Hn (ix2 m j) = HP X QWg SCg QZg QWu SCu QZu (ix2 m (colPerm11 j)))
    (hQWd : ∀ (j : Fin 11264) (p : Fin 512),
      QWd (ix2 j p) = if h : j.val < 11008 then dqw (ix2 (⟨j.val, h⟩ : Fin 11008) p) else 0#32)
    (hQZd : ∀ (g : Fin 88) (p : Fin 512),
      QZd (ix2 g p) = if h : g.val < 86 then dqz (ix2 (⟨g.val, h⟩ : Fin 86) p) else 0#32)
    (hSCd : ∀ (g : Fin 88) (nn : Fin 4096),
      SCd (ix2 g nn) = if h : g.val < 86 then dsc (ix2 (⟨g.val, h⟩ : Fin 86) (colPerm4.symm nn)) else 0)
    (hO : ∀ (m : Fin 8192) (n : Fin 4096), O (ix2 m n) = OP Hn QWd SCd QZd (ix2 m (colPerm4 n))) :
    O = Onat x gqw gsc gqz uqw usc uqz dqw dsc dqz := by
  funext i
  obtain ⟨m, n, rfl⟩ : ∃ (m : Fin 8192) (n : Fin 4096), i = ix2 m n := ⟨i 0, i 1, eq_ix2 i⟩
  rw [hO, OP_ix2, Onat_ix2]
  refine (sum_fin_of_vanish (M := 11008) (by decide) _ fun j hj => ?_).trans (Finset.sum_congr rfl fun j _ => ?_)
  · have hg : ¬ (pgrpB j).val < 86 := by show ¬ j.val / 128 < 86; omega
    rw [WtB_ix2, hSCd, dif_neg hg, deq, mul_zero, mul_zero]
  · have hj : (Fin.castLE (by decide : 11008 ≤ 11264) j).val < 11008 := j.isLt
    have hg : (pgrpB (Fin.castLE (by decide : 11008 ≤ 11264) j)).val < 86 := by
      have := j.isLt; show j.val / 128 < 86; omega
    rw [hHn, HP_ix2, Hnat_ix2, dotA_colPerm x X hX gqw gsc gqz QWg SCg QZg hQWg hQZg hSCg m _ hj,
      dotA_colPerm x X hX uqw usc uqz QWu SCu QZu hQWu hQZu hSCu m _ hj, WtB_ix2, WnatB_ix2,
      show pwordB (colPerm4 n) = wordB n from Fin.ext (toSMajor_word n.val),
      show plane (colPerm4 n) = lane n from Fin.ext (toSMajor_nibble n.val),
      hQWd, hQZd, hSCd, dif_pos hj, dif_pos hg, dif_pos hg, Equiv.symm_apply_apply]
    rfl

end Layer

end Cert.Val

end
-- ==== Proof.Val.Bridge.lean ====
import proofs.«429270_j84954453115513_3_alg».proof.Proof.Gen.KernelIdeal.Regions
import proofs.«429270_j84954453115513_3_alg».proof.Proof.Val.Host0
import proofs.«429270_j84954453115513_3_alg».proof.Proof.Val.Host1
import proofs.«429270_j84954453115513_3_alg».proof.Proof.Val.AlgCompose
import Idealize.ShloMosaic.Lib.ValueIdx

noncomputable section

namespace Cert.Val

open Cert.KernelIdeal Cert.KernelIdeal.Gen
open Idealize.ShloMosaic Idealize.ShloMosaic.TcCoe Idealize.ShloMosaic.ValueIdx
open Idealize.SL.Sem

/-- A family given at tile * 1024 + field * 128 + word is given at every column: a column is those three parts of itself. -/
theorem at_place {T : ℕ} {α : Type} {F : Fin (T * 1024) → α} {G : Fin T → Fin 8 → Fin 128 → α}
    (h : ∀ nt s cc, F ⟨nt.val * 1024 + s.val * 128 + cc.val, by omega⟩ = G nt s cc) (jj : Fin (T * 1024)) :
    F jj = G ⟨jj.val / 1024, by omega⟩ ⟨jj.val % 1024 / 128, by omega⟩ ⟨jj.val % 128, by omega⟩ :=
  (congrArg F (Fin.ext (by show jj.val = jj.val / 1024 * 1024 + jj.val % 1024 / 128 * 128 + jj.val % 128; omega))).trans (h _ _ _)

/-- The same for a family given at tile * 1024 + word * 8 + field. -/
theorem at_natural {T : ℕ} {α : Type} {F : Fin (T * 1024) → α} {G : Fin T → Fin 8 → Fin 128 → α}
    (h : ∀ nt s cc, F ⟨nt.val * 1024 + cc.val * 8 + s.val, by omega⟩ = G nt s cc) (j : Fin (T * 1024)) :
    F j = G ⟨j.val / 1024, by omega⟩ ⟨j.val % 8, by omega⟩ ⟨j.val % 1024 / 8, by omega⟩ :=
  (congrArg F (Fin.ext (by show j.val = j.val / 1024 * 1024 + j.val % 1024 / 8 * 8 + j.val % 8; omega))).trans (h _ _ _)

variable (m : (ℓ : Loc nD τ sig) → Buf (Elt Ideal) ℓ) (outs : Outs (F := Ideal)) (c : Dev nD)

/-- Each operand is its argument padded and, for the scales, rearranged; the algebra's law then gives the layer in natural order. -/
theorem kernel_value
    (h0 : (outs 13 main_v13 c : S8192x11264.Idx → EReal)
      = HP (V12 m c main_v0) (V12 m c main_v1) (V12 m c main_v5) (V12 m c main_v6) (V12 m c main_v7) (V12 m c main_v11) (V12 m c main_v12))
    (h1 : (outs 20 main_v23 c : S8192x4096.Idx → EReal)
      = OP (V19 m outs c main_v16) (V19 m outs c main_v17) (V19 m outs c main_v21) (V19 m outs c main_v22)) :
    (V21 m outs c main_v26 : S8192x4096.Idx → EReal)
      = Onat (V0 m c main_arg0) (V0 m c main_arg1) (V0 m c main_arg2) (V0 m c main_arg3) (V0 m c main_arg4)
          (V0 m c main_arg5) (V0 m c main_arg6) (V0 m c main_arg7) (V0 m c main_arg8) (V0 m c main_arg9) :=
  compose (V0 m c main_arg0) (V0 m c main_arg1) (V0 m c main_arg2) (V0 m c main_arg3) (V0 m c main_arg4)
    (V0 m c main_arg5) (V0 m c main_arg6) (V0 m c main_arg7) (V0 m c main_arg8) (V0 m c main_arg9)
    (V12 m c main_v0) (V12 m c main_v1) (V12 m c main_v5) (V12 m c main_v6) (V12 m c main_v7) (V12 m c main_v11) (V12 m c main_v12)
    (V19 m outs c main_v16) (V19 m outs c main_v17) (V19 m outs c main_v21) (V19 m outs c main_v22)
    (V21 m outs c main_v26)
    (V12_v0_apply m c) (V12_v1_apply m c) (V12_v6_apply m c)
    (fun g => at_place (T := 11) (F := fun q => V12 m c main_v5 (ix2 g q)) (V12_v5_apply m c g))
    (V12_v7_apply m c) (V12_v12_apply m c)
    (fun g => at_place (T := 11) (F := fun q => V12 m c main_v11 (ix2 g q)) (V12_v11_apply m c g))
    (fun r => at_natural (T := 11) (F := fun q => V19 m outs c main_v16 (ix2 r q))
      fun nt s cc => (V19_v16_apply m outs c r nt s cc).trans (congrFun h0 _))
    (V19_v17_apply m outs c) (V19_v22_apply m outs c)
    (fun g => at_place (T := 4) (F := fun q => V19 m outs c main_v21 (ix2 g q)) (V19_v21_apply m outs c g))
    (fun r => at_natural (T := 4) (F := fun q => V21 m outs c main_v26 (ix2 r q))
      fun nt s cc => (V21_v26_apply m outs c r nt s cc).trans (congrFun h1 _))

end Cert.Val
-- ==== Proof.Val.KernelOut.lean ====
import proofs.«429270_j84954453115513_3_alg».proof.Proof.KI.Regs
import proofs.«429270_j84954453115513_3_alg».proof.Proof.Val.Reg0Final
import proofs.«429270_j84954453115513_3_alg».proof.Proof.Val.Reg1Final
import proofs.«429270_j84954453115513_3_alg».proof.Proof.Val.Bridge

noncomputable section

namespace Cert.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

/-- Each region leaves the blocked value of its operands, so the result is the layer of the ten arguments in natural order. -/
theorem kernel_out : (V21 m (outs m) c main_v26 : S8192x4096.Idx → EReal)
    = Onat (V0 m c main_arg0) (V0 m c main_arg1) (V0 m c main_arg2) (V0 m c main_arg3) (V0 m c main_arg4)
        (V0 m c main_arg5) (V0 m c main_arg6) (V0 m c main_arg7) (V0 m c main_arg8) (V0 m c main_arg9) :=
  kernel_value m (outs m) c ((out0 (F := Ideal) m c).trans (final0 (Vin0 m) c)) ((out1 (F := Ideal) m c).trans (final1 (Vin1 m) c))

end Cert.Val

end
-- ==== Proof.lean ====
import proofs.«429270_j84954453115513_3_alg».proof.Defs
import proofs.«429270_j84954453115513_3_alg».proof.Proof.Gen.Kernel
import proofs.«429270_j84954453115513_3_alg».proof.Proof.Gen.KernelIdeal
import proofs.«429270_j84954453115513_3_alg».proof.Proof.Gen.ReferenceIdeal
import proofs.«429270_j84954453115513_3_alg».proof.Proof.Gen.Pre_finite_inputs
import proofs.«429270_j84954453115513_3_alg».proof.Proof.K.Regs
import proofs.«429270_j84954453115513_3_alg».proof.Proof.KI.Regs
import proofs.«429270_j84954453115513_3_alg».proof.Proof.Val.Ref
import proofs.«429270_j84954453115513_3_alg».proof.Proof.Val.KernelOut
import Idealize.ShloMosaic.Adequacy
import Idealize.ShloMosaic.Init

noncomputable section

namespace Cert.Proof

open Idealize.ShloMosaic Idealize.ShloMosaic.TcCoe Idealize.SL.Sem

open Cert.KernelIdeal Cert.KernelIdeal.Gen in
/-- Both idealized programs, from memories agreeing on the arguments, end at one natural-order formula of the arguments. -/
theorem algebraic : Cert.algebraic_KernelIdeal_ReferenceIdeal := by
  intro m ρ m' ρ' _ hagree
  refine ⟨fun c => Cert.Val.Onat (V0 m c main_arg0) (V0 m c main_arg1) (V0 m c main_arg2) (V0 m c main_arg3) (V0 m c main_arg4)
      (V0 m c main_arg5) (V0 m c main_arg6) (V0 m c main_arg7) (V0 m c main_arg8) (V0 m c main_arg9), ?_, ?_⟩
  · exact (θ_run Cert.KernelIdeal.defs _ _).mono (fun r h c => ⟨(h c).1.trans (Cert.Val.kernel_out m c), (h c).2⟩)
      (Cert.KernelIdeal.Fr.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.Val.ref_result, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  fun m ρ _ => (θ_run Cert.Kernel.defs _ _).mono (fun _ h c => (h c).2) (Cert.Kernel.Fr.run (F := Bits) m ρ),
  fun m ρ _ => (θ_run Cert.KernelIdeal.defs _ _).mono (fun _ h c => (h c).2) (Cert.KernelIdeal.Fr.run (F := Ideal) m ρ),
  fun m ρ _ => (θ_run Cert.ReferenceIdeal.defs _ _).mono (fun _ h c => (h c).2) (Cert.ReferenceIdeal.Value.run (F := Ideal) m ρ),
  trivial,
  algebraic⟩

end Cert.Proof

end
